-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S3200000x4 : Shape := ⟨2, ![3200000, 4]⟩
abbrev S2x3200000 : Shape := ⟨2, ![2, 3200000]⟩
abbrev S100000 : Shape := ⟨1, ![100000]⟩
abbrev S32x32 : Shape := ⟨2, ![32, 32]⟩
abbrev S32 : Shape := ⟨1, ![32]⟩
abbrev S96x96 : Shape := ⟨2, ![96, 96]⟩
abbrev S96 : Shape := ⟨1, ![96]⟩
abbrev S10x96 : Shape := ⟨2, ![10, 96]⟩
abbrev S10 : Shape := ⟨1, ![10]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S3200000x4 : S_.BroadcastsInDim S3200000x4 (![] : Fin 0 → Fin S3200000x4.rank)
  reducesTo_S3200000x4_S_d0_1 : S3200000x4.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S10x96 : S_.BroadcastsInDim S10x96 (![] : Fin 0 → Fin S10x96.rank)
  reducesTo_S10x96_S_d0_1 : S10x96.ReducesTo [0, 1] S_
  bcast_S_S10 : S_.BroadcastsInDim S10 (![] : Fin 0 → Fin S10.rank)
  reducesTo_S10_S_d0 : S10.ReducesTo [0] S_

variable [Facts]

def fn_part8 {F : FTy → Type} [FloatOps F] (main_arg30 : FVec F S10x96 .f32) (main_arg31 : FVec F S10 .f32) (main_v133 : IVec S_ 1) (main_v136 : IVec S96 1) : IVec S_ 1 :=
  let main_c_53 : IVec S_ 1 := constantI S_ 1 1#1
  let main_v137 : IVec S_ 1 := (fun x v => Host.reduce IntOp.andi x v reducesTo_S96_S_d0 h_S_) main_v136 main_c_53
  let main_v138 : IVec S_ 1 := andi main_v133 main_v137
  let main_v139 : FVec F S10x96 .f32 := Host.absf main_arg30
  let main_cst_54 : FVec F S_ .f32 := constant S_ .f32 0x7F800000#32
  let main_v140 : FVec F S10x96 .f32 := broadcastInDim S10x96 ![] bcast_S_S10x96 main_cst_54
  let main_v141 : IVec S10x96 1 := cmpf .olt main_v139 main_v140
  let main_c_55 : IVec S_ 1 := constantI S_ 1 1#1
  let main_v142 : IVec S_ 1 := (fun x v => Host.reduce IntOp.andi x v reducesTo_S10x96_S_d0_1 h_S_) main_v141 main_c_55
  let main_v143 : IVec S_ 1 := andi main_v138 main_v142
  let main_v144 : FVec F S10 .f32 := Host.absf main_arg31
  let main_cst_56 : FVec F S_ .f32 := constant S_ .f32 0x7F800000#32
  let main_v145 : FVec F S10 .f32 := broadcastInDim S10 ![] bcast_S_S10 main_cst_56
  let main_v146 : IVec S10 1 := cmpf .olt main_v144 main_v145
  let main_c_57 : IVec S_ 1 := constantI S_ 1 1#1
  let main_v147 : IVec S_ 1 := (fun x v => Host.reduce IntOp.andi x v reducesTo_S10_S_d0 h_S_) main_v146 main_c_57
  let main_v148 : IVec S_ 1 := andi main_v143 main_v147
  main_v148

def fn_part7 {F : FTy → Type} [FloatOps F] (main_arg27 : FVec F S32 .f32) (main_arg28 : FVec F S96x96 .f32) (main_arg29 : FVec F S96 .f32) (main_arg30 : FVec F S10x96 .f32) (main_arg31 : FVec F S10 .f32) (main_v118 : IVec S_ 1) (main_v119 : FVec F S32x32 .f32) : IVec S_ 1 :=
  let main_cst_46 : FVec F S_ .f32 := constant S_ .f32 0x7F800000#32
  let main_v120 : FVec F S32x32 .f32 := broadcastInDim S32x32 ![] bcast_S_S32x32 main_cst_46
  let main_v121 : IVec S32x32 1 := cmpf .olt main_v119 main_v120
  let main_c_47 : IVec S_ 1 := constantI S_ 1 1#1
  let main_v122 : IVec S_ 1 := (fun x v => Host.reduce IntOp.andi x v reducesTo_S32x32_S_d0_1 h_S_) main_v121 main_c_47
  let main_v123 : IVec S_ 1 := andi main_v118 main_v122
  let main_v124 : FVec F S32 .f32 := Host.absf main_arg27
  let main_cst_48 : FVec F S_ .f32 := constant S_ .f32 0x7F800000#32
  let main_v125 : FVec F S32 .f32 := broadcastInDim S32 ![] bcast_S_S32 main_cst_48
  let main_v126 : IVec S32 1 := cmpf .olt main_v124 main_v125
  let main_c_49 : IVec S_ 1 := constantI S_ 1 1#1
  let main_v127 : IVec S_ 1 := (fun x v => Host.reduce IntOp.andi x v reducesTo_S32_S_d0 h_S_) main_v126 main_c_49
  let main_v128 : IVec S_ 1 := andi main_v123 main_v127
  let main_v129 : FVec F S96x96 .f32 := Host.absf main_arg28
  let main_cst_50 : FVec F S_ .f32 := constant S_ .f32 0x7F800000#32
  let main_v130 : FVec F S96x96 .f32 := broadcastInDim S96x96 ![] bcast_S_S96x96 main_cst_50
  let main_v131 : IVec S96x96 1 := cmpf .olt main_v129 main_v130
  let main_c_51 : IVec S_ 1 := constantI S_ 1 1#1
  let main_v132 : IVec S_ 1 := (fun x v => Host.reduce IntOp.andi x v reducesTo_S96x96_S_d0_1 h_S_) main_v131 main_c_51
  let main_v133 : IVec S_ 1 := andi main_v128 main_v132
  let main_v134 : FVec F S96 .f32 := Host.absf main_arg29
  let main_cst_52 : FVec F S_ .f32 := constant S_ .f32 0x7F800000#32
  let main_v135 : FVec F S96 .f32 := broadcastInDim S96 ![] bcast_S_S96 main_cst_52
  let main_v136 : IVec S96 1 := cmpf .olt main_v134 main_v135
  fn_part8 (F := F) main_arg30 main_arg31 main_v133 main_v136

def fn_part6 {F : FTy → Type} [FloatOps F] (main_arg23 : FVec F S32 .f32) (main_arg24 : FVec F S32 .f32) (main_arg25 : FVec F S32 .f32) (main_arg26 : FVec F S32x32 .f32) (main_arg27 : FVec F S32 .f32) (main_arg28 : FVec F S96x96 .f32) (main_arg29 : FVec F S96 .f32) (main_arg30 : FVec F S10x96 .f32) (main_arg31 : FVec F S10 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32 .f32 := Host.absf main_arg23
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S32 .f32 := Host.absf main_arg24
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32 .f32 := Host.absf main_arg25
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S32x32 .f32 := Host.absf main_arg26
  fn_part7 (F := F) main_arg27 main_arg28 main_arg29 main_arg30 main_arg31 main_v118 main_v119

def fn_part5 {F : FTy → Type} [FloatOps F] (main_arg20 : FVec F S32x32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S96x96 .f32) (main_arg29 : FVec F S96 .f32) (main_arg30 : FVec F S10x96 .f32) (main_arg31 : FVec F S10 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x32 .f32 := Host.absf main_arg20
  let main_cst_34 : FVec F S_ .f32 := constant S_ .f32 0x7F800000#32
  let main_v90 : FVec F S32x32 .f32 := broadcastInDim S32x32 ![] bcast_S_S32x32 main_cst_34
  let main_v91 : IVec S32x32 1 := cmpf .olt main_v89 main_v90
  let main_c_35 : IVec S_ 1 := constantI S_ 1 1#1
  let main_v92 : IVec S_ 1 := (fun x v => Host.reduce IntOp.andi x v reducesTo_S32x32_S_d0_1 h_S_) main_v91 main_c_35
  let main_v93 : IVec S_ 1 := andi main_v88 main_v92
  let main_v94 : FVec F S32 .f32 := Host.absf main_arg21
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg22
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg23 main_arg24 main_arg25 main_arg26 main_arg27 main_arg28 main_arg29 main_arg30 main_arg31 main_v98 main_v101 main_c_39

def fn_part4 {F : FTy → Type} [FloatOps F] (main_arg16 : FVec F S32 .f32) (main_arg17 : FVec F S32 .f32) (main_arg18 : FVec F S32x32 .f32) (main_arg19 : FVec F S32 .f32) (main_arg20 : FVec F S32x32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S96x96 .f32) (main_arg29 : FVec F S96 .f32) (main_arg30 : FVec F S10x96 .f32) (main_arg31 : FVec F S10 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x32 .f32 := Host.absf main_arg18
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_v83 main_v84 main_cst_32

def fn_part3 {F : FTy → Type} [FloatOps F] (main_arg13 : FVec F S32 .f32) (main_arg14 : FVec F S32 .f32) (main_arg15 : FVec F S32 .f32) (main_arg16 : FVec F S32 .f32) (main_arg17 : FVec F S32 .f32) (main_arg18 : FVec F S32x32 .f32) (main_arg19 : FVec F S32 .f32) (main_arg20 : FVec F S32x32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S96x96 .f32) (main_arg29 : FVec F S96 .f32) (main_arg30 : FVec F S10x96 .f32) (main_arg31 : FVec F S10 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg9 : FVec F S32 .f32) (main_arg10 : FVec F S32x32 .f32) (main_arg11 : FVec F S32 .f32) (main_arg12 : FVec F S32x32 .f32) (main_arg13 : FVec F S32 .f32) (main_arg14 : FVec F S32 .f32) (main_arg15 : FVec F S32 .f32) (main_arg16 : FVec F S32 .f32) (main_arg17 : FVec F S32 .f32) (main_arg18 : FVec F S32x32 .f32) (main_arg19 : FVec F S32 .f32) (main_arg20 : FVec F S32x32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S96x96 .f32) (main_arg29 : FVec F S96 .f32) (main_arg30 : FVec F S10x96 .f32) (main_arg31 : FVec F S10 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg12
  let main_cst_18 : FVec F S_ .f32 := constant S_ .f32 0x7F800000#32
  let main_v50 : FVec F S32x32 .f32 := broadcastInDim S32x32 ![] bcast_S_S32x32 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg6 : FVec F S32 .f32) (main_arg7 : FVec F S32 .f32) (main_arg8 : FVec F S32 .f32) (main_arg9 : FVec F S32 .f32) (main_arg10 : FVec F S32x32 .f32) (main_arg11 : FVec F S32 .f32) (main_arg12 : FVec F S32x32 .f32) (main_arg13 : FVec F S32 .f32) (main_arg14 : FVec F S32 .f32) (main_arg15 : FVec F S32 .f32) (main_arg16 : FVec F S32 .f32) (main_arg17 : FVec F S32 .f32) (main_arg18 : FVec F S32x32 .f32) (main_arg19 : FVec F S32 .f32) (main_arg20 : FVec F S32x32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S96x96 .f32) (main_arg29 : FVec F S96 .f32) (main_arg30 : FVec F S10x96 .f32) (main_arg31 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S100000x32 .f32) (main_arg1 : FVec F S3200000x4 .f32) (main_arg2 : IVec S2x3200000 32) (main_arg3 : IVec S100000 32) (main_arg4 : FVec F S32x32 .f32) (main_arg5 : FVec F S32 .f32) (main_arg6 : FVec F S32 .f32) (main_arg7 : FVec F S32 .f32) (main_arg8 : FVec F S32 .f32) (main_arg9 : FVec F S32 .f32) (main_arg10 : FVec F S32x32 .f32) (main_arg11 : FVec F S32 .f32) (main_arg12 : FVec F S32x32 .f32) (main_arg13 : FVec F S32 .f32) (main_arg14 : FVec F S32 .f32) (main_arg15 : FVec F S32 .f32) (main_arg16 : FVec F S32 .f32) (main_arg17 : FVec F S32 .f32) (main_arg18 : FVec F S32x32 .f32) (main_arg19 : FVec F S32 .f32) (main_arg20 : FVec F S32x32 .f32) (main_arg21 : FVec F S32 .f32) (main_arg22 : FVec F S32 .f32) (main_arg23 : FVec F S32 .f32) (main_arg24 : FVec F S32 .f32) (main_arg25 : FVec F S32 .f32) (main_arg26 : FVec F S32x32 .f32) (main_arg27 : FVec F S32 .f32) (main_arg28 : FVec F S96x96 .f32) (main_arg29 : FVec F S96 .f32) (main_arg30 : FVec F S10x96 .f32) (main_arg31 : FVec F S10 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S3200000x4 .f32 := Host.absf main_arg1
  let main_cst_0 : FVec F S_ .f32 := constant S_ .f32 0x7F800000#32
  let main_v5 : FVec F S3200000x4 .f32 := broadcastInDim S3200000x4 ![] bcast_S_S3200000x4 main_cst_0
  let main_v6 : IVec S3200000x4 1 := cmpf .olt main_v4 main_v5
  let main_c_1 : IVec S_ 1 := constantI S_ 1 1#1
  let main_v7 : IVec S_ 1 := (fun x v => Host.reduce IntOp.andi x v reducesTo_S3200000x4_S_d0_1 h_S_) main_v6 main_c_1
  let main_v8 : IVec S_ 1 := andi main_v3 main_v7
  let main_v9 : FVec F S32x32 .f32 := Host.absf main_arg4
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S100000x32 : Shape := ⟨2, ![100000, 32]⟩
abbrev S3200000x4 : Shape := ⟨2, ![3200000, 4]⟩
abbrev S2x3200000 : Shape := ⟨2, ![2, 3200000]⟩
abbrev S100000 : Shape := ⟨1, ![100000]⟩
abbrev S32x32 : Shape := ⟨2, ![32, 32]⟩
abbrev S32 : Shape := ⟨1, ![32]⟩
abbrev S96x96 : Shape := ⟨2, ![96, 96]⟩
abbrev S96 : Shape := ⟨1, ![96]⟩
abbrev S10x96 : Shape := ⟨2, ![10, 96]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S5000x32 : Shape := ⟨2, ![5000, 32]⟩
abbrev S1x32 : Shape := ⟨2, ![1, 32]⟩
abbrev S100000x96 : Shape := ⟨2, ![100000, 96]⟩
abbrev S100000x1 : Shape := ⟨2, ![100000, 1]⟩
abbrev S2048x96 : Shape := ⟨2, ![2048, 96]⟩
abbrev S4000x96 : Shape := ⟨2, ![4000, 96]⟩
abbrev S4000x1 : Shape := ⟨2, ![4000, 1]⟩
abbrev S4000x2048 : Shape := ⟨2, ![4000, 2048]⟩
abbrev S2048x10 : Shape := ⟨2, ![2048, 10]⟩
abbrev S512x96 : Shape := ⟨2, ![512, 96]⟩
abbrev S512x10 : Shape := ⟨2, ![512, 10]⟩
abbrev S1x96 : Shape := ⟨2, ![1, 96]⟩
abbrev S96x10 : Shape := ⟨2, ![96, 10]⟩
abbrev S1x10 : Shape := ⟨2, ![1, 10]⟩

abbrev nBuf : Space → Nat
  | .hbm => 85
  | .vmem => 50
  | .smem => 0
  | _ => 0

abbrev bufTy : (tb : Table) → Fin (tcTables nBuf tb) → BufTy
  | .hbm, ⟨0, _⟩ => ⟨S100000x32, .f32⟩
  | .hbm, ⟨1, _⟩ => ⟨S3200000x4, .f32⟩
  | .hbm, ⟨2, _⟩ => ⟨S2x3200000, .i32⟩
  | .hbm, ⟨3, _⟩ => ⟨S100000, .i32⟩
  | .hbm, ⟨4, _⟩ => ⟨S32x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32x32, .f32⟩
  | .hbm, ⟨19, _⟩ => ⟨S32, .f32⟩
  | .hbm, ⟨20, _⟩ => ⟨S32x32, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S32x32, .f32⟩
  | .hbm, ⟨27, _⟩ => ⟨S32, .f32⟩
  | .hbm, ⟨28, _⟩ => ⟨S96x96, .f32⟩
  | .hbm, ⟨29, _⟩ => ⟨S96, .f32⟩
  | .hbm, ⟨30, _⟩ => ⟨S10x96, .f32⟩
  | .hbm, ⟨31, _⟩ => ⟨S10, .f32⟩
  | .hbm, ⟨32, _⟩ => ⟨S1x3200000, .i32⟩
  | .hbm, ⟨33, _⟩ => ⟨S3200000, .i32⟩
  | .hbm, ⟨34, _⟩ => ⟨S1x3200000, .i32⟩
  | .hbm, ⟨35, _⟩ => ⟨S3200000, .i32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000x32, .f32⟩
  | .hbm, ⟨45, _⟩ => ⟨S_, .f32⟩
  | .hbm, ⟨46, _⟩ => ⟨S100000x32, .f32⟩
  | .hbm, ⟨47, _⟩ => ⟨S3200000x1, .i32⟩
  | .hbm, ⟨48, _⟩ => ⟨S100000x32, .f32⟩
  | .hbm, ⟨49, _⟩ => ⟨S100000x32, .f32⟩
  | .hbm, ⟨50, _⟩ => ⟨S100000x32, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x32, .f32⟩
  | .hbm, ⟨60, _⟩ => ⟨S_, .f32⟩
  | .hbm, ⟨61, _⟩ => ⟨S100000x32, .f32⟩
  | .hbm, ⟨62, _⟩ => ⟨S3200000x1, .i32⟩
  | .hbm, ⟨63, _⟩ => ⟨S100000x32, .f32⟩
  | .hbm, ⟨64, _⟩ => ⟨S100000x32, .f32⟩
  | .hbm, ⟨65, _⟩ => ⟨S100000x32, .f32⟩
  | .hbm, ⟨66, _⟩ => ⟨S_, .i32⟩
  | .hbm, ⟨67, _⟩ => ⟨S3200000, .i32⟩
  | .hbm, ⟨68, _⟩ => ⟨S3200000, .i1⟩
  | .hbm, ⟨69, _⟩ => ⟨S_, .i32⟩
  | .hbm, ⟨70, _⟩ => ⟨S3200000, .i32⟩
  | .hbm, ⟨71, _⟩ => ⟨S3200000, .i32⟩
  | .hbm, ⟨72, _⟩ => ⟨S3200000, .i32⟩
  | .hbm, ⟨73, _⟩ => ⟨S3200000x1, .i32⟩
  | .hbm, ⟨74, _⟩ => ⟨S3200000x32, .f32⟩
  | .hbm, ⟨75, _⟩ => ⟨S_, .f32⟩
  | .hbm, ⟨76, _⟩ => ⟨S100000x32, .f32⟩
  | .hbm, ⟨77, _⟩ => ⟨S3200000x1, .i32⟩
  | .hbm, ⟨78, _⟩ => ⟨S100000x32, .f32⟩
  | .hbm, ⟨79, _⟩ => ⟨S100000x32, .f32⟩
  | .hbm, ⟨80, _⟩ => ⟨S100000x32, .f32⟩
  | .hbm, ⟨81, _⟩ => ⟨S100000x96, .f32⟩
  | .hbm, ⟨82, _⟩ => ⟨S100000x1, .i32⟩
  | .hbm, ⟨83, _⟩ => ⟨S2048x96, .f32⟩
  | .hbm, ⟨84, _⟩ => ⟨S2048x10, .f32⟩
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S32, .f32⟩
  | .local _ .vmem, ⟨4, _⟩ => ⟨S32, .f32⟩
  | .local _ .vmem, ⟨5, _⟩ => ⟨S32, .f32⟩
  | .local _ .vmem, ⟨6, _⟩ => ⟨S32, .f32⟩
  | .local _ .vmem, ⟨7, _⟩ => ⟨S32, .f32⟩
  | .local _ .vmem, ⟨8, _⟩ => ⟨S32x32, .f32⟩
  | .local _ .vmem, ⟨9, _⟩ => ⟨S32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S32x32, .f32⟩
  | .local _ .vmem, ⟨15, _⟩ => ⟨S32, .f32⟩
  | .local _ .vmem, ⟨16, _⟩ => ⟨S32, .f32⟩
  | .local _ .vmem, ⟨17, _⟩ => ⟨S32, .f32⟩
  | .local _ .vmem, ⟨18, _⟩ => ⟨S32, .f32⟩
  | .local _ .vmem, ⟨19, _⟩ => ⟨S32, .f32⟩
  | .local _ .vmem, ⟨20, _⟩ => ⟨S32x32, .f32⟩
  | .local _ .vmem, ⟨21, _⟩ => ⟨S32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S32x32, .f32⟩
  | .local _ .vmem, ⟨27, _⟩ => ⟨S32, .f32⟩
  | .local _ .vmem, ⟨28, _⟩ => ⟨S32, .f32⟩
  | .local _ .vmem, ⟨29, _⟩ => ⟨S32, .f32⟩
  | .local _ .vmem, ⟨30, _⟩ => ⟨S32, .f32⟩
  | .local _ .vmem, ⟨31, _⟩ => ⟨S32, .f32⟩
  | .local _ .vmem, ⟨32, _⟩ => ⟨S32x32, .f32⟩
  | .local _ .vmem, ⟨33, _⟩ => ⟨S32, .f32⟩
  | .local _ .vmem, ⟨34, _⟩ => ⟨S5000x32, .f32⟩
  | .local _ .vmem, ⟨35, _⟩ => ⟨S5000x32, .f32⟩
  | .local _ .vmem, ⟨36, _⟩ => ⟨S4000x96, .f32⟩
  | .local _ .vmem, ⟨37, _⟩ => ⟨S4000x96, .f32⟩
  | .local _ .vmem, ⟨38, _⟩ => ⟨S4000x1, .i32⟩
  | .local _ .vmem, ⟨39, _⟩ => ⟨S4000x1, .i32⟩
  | .local _ .vmem, ⟨40, _⟩ => ⟨S2048x96, .f32⟩
  | .local _ .vmem, ⟨41, _⟩ => ⟨S2048x96, .f32⟩
  | .local _ .vmem, ⟨42, _⟩ => ⟨S512x96, .f32⟩
  | .local _ .vmem, ⟨43, _⟩ => ⟨S512x96, .f32⟩
  | .local _ .vmem, ⟨44, _⟩ => ⟨S96x96, .f32⟩
  | .local _ .vmem, ⟨45, _⟩ => ⟨S96, .f32⟩
  | .local _ .vmem, ⟨46, _⟩ => ⟨S10x96, .f32⟩
  | .local _ .vmem, ⟨47, _⟩ => ⟨S10, .f32⟩
  | .local _ .vmem, ⟨48, _⟩ => ⟨S512x10, .f32⟩
  | .local _ .vmem, ⟨49, _⟩ => ⟨S512x10, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_c_1 : Ref sig .tc := ⟨.hbm, 51, rfl⟩
abbrev main_v16 : Ref sig .tc := ⟨.hbm, 52, rfl⟩
abbrev main_v17 : Ref sig .tc := ⟨.hbm, 53, rfl⟩
abbrev main_c_2 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_3 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_c_4 : Ref sig .tc := ⟨.hbm, 66, rfl⟩
abbrev main_v28 : Ref sig .tc := ⟨.hbm, 67, rfl⟩
abbrev main_v29 : Ref sig .tc := ⟨.hbm, 68, rfl⟩
abbrev main_c_5 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_6 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_scratch0 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem5_1 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2048x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S10x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x10 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  concatenates_S100000x32_S100000x32_S100000x32_S100000x96_d1 : Shape.Concatenates [S100000x32, S100000x32, S100000x32] S100000x96 1
  shapeCasts_S100000_S100000x1 : S100000.ShapeCasts S100000x1
  inb_S2048x96_S2048x96_0_0 : ∀ a, (![0, 0] : Fin 2 → Nat) a + S2048x96.size a ≤ S2048x96.size a
  h_S2048x96 : 0 < S2048x96.numel
  shapeCasts_S2048x96_S2048x96 : S2048x96.ShapeCasts S2048x96
  inb_S4000x96_S4000x96_0_0 : ∀ a, (![0, 0] : Fin 2 → Nat) a + S4000x96.size a ≤ S4000x96.size a
  h_S4000x96 : 0 < S4000x96.numel
  shapeCasts_S4000x96_S4000x96 : S4000x96.ShapeCasts S4000x96
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x2048_d1_w32 : S4000x2048.Iotas .tc 32 [1]
  broadcasts_S4000x1_S4000x2048 : S4000x1.Broadcasts S4000x2048
  natLt_1_32 : 1 < 32
  inb_S512x96_S512x96_0_0 : ∀ a, (![0, 0] : Fin 2 → Nat) a + S512x96.size a ≤ S512x96.size a
  h_S512x96 : 0 < S512x96.numel
  shapeCasts_S512x96_S512x96 : S512x96.ShapeCasts S512x96
  inb_S96x96_S96x96_0_0 : ∀ a, (![0, 0] : Fin 2 → Nat) a + S96x96.size a ≤ S96x96.size a
  h_S96x96 : 0 < S96x96.numel
  transposes_S96x96_p1_0_S96x96 : S96x96.Transposes [1, 0] S96x96
  inb_S96_S96_0 : ∀ a, (![0] : Fin 1 → Nat) a + S96.size a ≤ S96.size a
  h_S96 : 0 < S96.numel
  shapeCasts_S96_S1x96 : S96.ShapeCasts S1x96
  broadcasts_S1x96_S512x96 : S1x96.Broadcasts S512x96
  inb_S10x96_S10x96_0_0 : ∀ a, (![0, 0] : Fin 2 → Nat) a + S10x96.size a ≤ S10x96.size a
  h_S10x96 : 0 < S10x96.numel
  transposes_S10x96_p1_0_S96x10 : S10x96.Transposes [1, 0] S96x10
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x32_S5000x32_1_0_0_1_n_n_wf : DotDims.WF S5000x32 S32x32 S5000x32 [1] [0] [0] [1] [] []
  dot_S4000x2048_S4000x96_S2048x96_0_0_1_1_n_n_wf : DotDims.WF S4000x2048 S4000x96 S2048x96 [0] [0] [1] [1] [] []
  dot_S512x96_S96x96_S512x96_1_0_0_1_n_n_wf : DotDims.WF S512x96 S96x96 S512x96 [1] [0] [0] [1] [] []
  dot_S512x96_S96x10_S512x10_1_0_0_1_n_n_wf : DotDims.WF S512x96 S96x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x32.size a ≤ S100000x32.size a
  hwx0_9 : ∀ i : grid0.Coords, EltTy.bits .f32 = 32 ∨ (Rect.block (s := S100000x32) S5000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x32.size a ≤ S32x32.size a
  hwx1_7 : ∀ i : grid1.Coords, EltTy.bits .f32 = 32 ∨ (Rect.block (s := S32x32) S32x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32.size a ≤ S32.size a
  hwx1_8 : ∀ i : grid1.Coords, EltTy.bits .f32 = 32 ∨ (Rect.block (s := S32) S32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x32.size a ≤ S100000x32.size a
  hwx1_9 : ∀ i : grid1.Coords, EltTy.bits .f32 = 32 ∨ (Rect.block (s := S100000x32) S5000x32.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32.size a ≤ S32.size a
  hwx2_4 : ∀ i : grid2.Coords, EltTy.bits .f32 = 32 ∨ (Rect.block (s := S32) S32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32.size a ≤ S32.size a
  hwx2_5 : ∀ i : grid2.Coords, EltTy.bits .f32 = 32 ∨ (Rect.block (s := S32) S32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32.size a ≤ S32.size a
  hwx2_6 : ∀ i : grid2.Coords, EltTy.bits .f32 = 32 ∨ (Rect.block (s := S32) S32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x32.size a ≤ S32x32.size a
  hwx2_7 : ∀ i : grid2.Coords, EltTy.bits .f32 = 32 ∨ (Rect.block (s := S32x32) S32x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32.size a ≤ S32.size a
  hwx2_8 : ∀ i : grid2.Coords, EltTy.bits .f32 = 32 ∨ (Rect.block (s := S32) S32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x32.size a ≤ S100000x32.size a
  hwx2_9 : ∀ i : grid2.Coords, EltTy.bits .f32 = 32 ∨ (Rect.block (s := S100000x32) S5000x32.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x96.size a ≤ S100000x96.size a
  hwx3_0 : ∀ i : grid3.Coords, EltTy.bits .f32 = 32 ∨ (Rect.block (s := S100000x96) S4000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .i32 = 32 ∨ (Rect.block (s := S100000x1) S4000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2048x96.size a ≤ S2048x96.size a
  hwx3_2 : ∀ i : grid3.Coords, EltTy.bits .f32 = 32 ∨ (Rect.block (s := S2048x96) S2048x96.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x96.size a ≤ S2048x96.size a
  hwx4_0 : ∀ i : grid4.Coords, EltTy.bits .f32 = 32 ∨ (Rect.block (s := S2048x96) S512x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x96.size a ≤ S96x96.size a
  hwx4_1 : ∀ i : grid4.Coords, EltTy.bits .f32 = 32 ∨ (Rect.block (s := S96x96) S96x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S96.size a ≤ S96.size a
  hwx4_2 : ∀ i : grid4.Coords, EltTy.bits .f32 = 32 ∨ (Rect.block (s := S96) S96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S10x96.size a ≤ S10x96.size a
  hwx4_3 : ∀ i : grid4.Coords, EltTy.bits .f32 = 32 ∨ (Rect.block (s := S10x96) S10x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S10.size a ≤ S10.size a
  hwx4_4 : ∀ i : grid4.Coords, EltTy.bits .f32 = 32 ∨ (Rect.block (s := S10) S10.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x10.size a ≤ S2048x10.size a
  hwx4_5 : ∀ i : grid4.Coords, EltTy.bits .f32 = 32 ∨ (Rect.block (s := S2048x10) S512x10.size (cc4_transform_5 i) (hinb4_5 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S4000x2048_S4000x96_S2048x96_0_0_1_1_n_n : DotDims S4000x2048 S4000x96 S2048x96 where
  lhsContracting := [0]
  rhsContracting := [0]
  lhsNonContracting := [1]
  rhsNonContracting := [1]
  lhsBatch := []
  rhsBatch := []
  wf := dot_S4000x2048_S4000x96_S2048x96_0_0_1_1_n_n_wf
def dot_S512x96_S96x96_S512x96_1_0_0_1_n_n : DotDims S512x96 S96x96 S512x96 where
  lhsContracting := [1]
  rhsContracting := [0]
  lhsNonContracting := [0]
  rhsNonContracting := [1]
  lhsBatch := []
  rhsBatch := []
  wf := dot_S512x96_S96x96_S512x96_1_0_0_1_n_n_wf
def dot_S512x96_S96x10_S512x10_1_0_0_1_n_n : DotDims S512x96 S96x10 S512x10 where
  lhsContracting := [1]
  rhsContracting := [0]
  lhsNonContracting := [0]
  rhsNonContracting := [1]
  lhsBatch := []
  rhsBatch := []
  wf := dot_S512x96_S96x10_S512x10_1_0_0_1_n_n_wf

abbrev win0_0 : Pipeline.Window sig grid0 :=
  Pipeline.Window.ofSpec (Memref.whole main_v14) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S5000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v26) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg17) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg18) S32x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg19) S32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S5000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v38) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg20) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg21) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg22) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg23) S32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg24) S32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg25) S32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg26) S32x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg27) S32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v39) S5000x32.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v40) S4000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2048x96.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v42) S512x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg28) S96x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg29) S96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg30) S10x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg31) S10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v43) S512x10.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x32 : Shape := ⟨2, ![100000, 32]⟩
abbrev S3200000x4 : Shape := ⟨2, ![3200000, 4]⟩
abbrev S2x3200000 : Shape := ⟨2, ![2, 3200000]⟩
abbrev S100000 : Shape := ⟨1, ![100000]⟩
abbrev S32x32 : Shape := ⟨2, ![32, 32]⟩
abbrev S32 : Shape := ⟨1, ![32]⟩
abbrev S96x96 : Shape := ⟨2, ![96, 96]⟩
abbrev S96 : Shape := ⟨1, ![96]⟩
abbrev S10x96 : Shape := ⟨2, ![10, 96]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S2048x32 : Shape := ⟨2, ![2048, 32]⟩
abbrev S100000x1 : Shape := ⟨2, ![100000, 1]⟩
abbrev S2048x96 : Shape := ⟨2, ![2048, 96]⟩
abbrev S1x96 : Shape := ⟨2, ![1, 96]⟩
abbrev S96x10 : Shape := ⟨2, ![96, 10]⟩
abbrev S2048x10 : Shape := ⟨2, ![2048, 10]⟩
abbrev S1x10 : Shape := ⟨2, ![1, 10]⟩

abbrev nBuf : Space → Nat
  | .hbm => 238
  | .vmem => 0
  | .smem => 0
  | _ => 0

abbrev hbmTy0_0 (i : Nat) : BufTy := match i % 128 with
  | 0 => ⟨S100000x32, .f32⟩
  | 1 => ⟨S3200000x4, .f32⟩
  | 2 => ⟨S2x3200000, .i32⟩
  | 3 => ⟨S100000, .i32⟩
  | 4 => ⟨S32x32, .f32⟩
  | 5 => ⟨S32, .f32⟩
  | 6 => ⟨S32, .f32⟩
  | 7 => ⟨S32, .f32⟩
  | 8 => ⟨S32, .f32⟩
  | 9 => ⟨S32, .f32⟩
  | 10 => ⟨S32x32, .f32⟩
  | 11 => ⟨S32, .f32⟩
  | 12 => ⟨S32x32, .f32⟩
  | 13 => ⟨S32, .f32⟩
  | 14 => ⟨S32, .f32⟩
  | 15 => ⟨S32, .f32⟩
  | 16 => ⟨S32, .f32⟩
  | 17 => ⟨S32, .f32⟩
  | 18 => ⟨S32x32, .f32⟩
  | 19 => ⟨S32, .f32⟩
  | 20 => ⟨S32x32, .f32⟩
  | 21 => ⟨S32, .f32⟩
  | 22 => ⟨S32, .f32⟩
  | 23 => ⟨S32, .f32⟩
  | 24 => ⟨S32, .f32⟩
  | 25 => ⟨S32, .f32⟩
  | 26 => ⟨S32x32, .f32⟩
  | 27 => ⟨S32, .f32⟩
  | 28 => ⟨S96x96, .f32⟩
  | 29 => ⟨S96, .f32⟩
  | 30 => ⟨S10x96, .f32⟩
  | 31 => ⟨S10, .f32⟩
  | 32 => ⟨S1x3200000, .i32⟩
  | 33 => ⟨S3200000, .i32⟩
  | 34 => ⟨S1x3200000, .i32⟩
  | 35 => ⟨S3200000, .i32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000x32, .f32⟩
  | 45 => ⟨S_, .f32⟩
  | 46 => ⟨S100000x32, .f32⟩
  | 47 => ⟨S3200000x1, .i32⟩
  | 48 => ⟨S100000x32, .f32⟩
  | 49 => ⟨S100000x32, .f32⟩
  | 50 => ⟨S32x32, .f32⟩
  | 51 => ⟨S100000x32, .f32⟩
  | 52 => ⟨S1x32, .f32⟩
  | 53 => ⟨S100000x32, .f32⟩
  | 54 => ⟨S100000x32, .f32⟩
  | 55 => ⟨S1x32, .f32⟩
  | 56 => ⟨S100000x32, .f32⟩
  | 57 => ⟨S100000x32, .f32⟩
  | 58 => ⟨S_, .f32⟩
  | 59 => ⟨S32, .f32⟩
  | 60 => ⟨S32, .f32⟩
  | 61 => ⟨S32, .f32⟩
  | 62 => ⟨S1x32, .f32⟩
  | 63 => ⟨S100000x32, .f32⟩
  | 64 => ⟨S100000x32, .f32⟩
  | 65 => ⟨S1x32, .f32⟩
  | 66 => ⟨S100000x32, .f32⟩
  | 67 => ⟨S100000x32, .f32⟩
  | 68 => ⟨S1x32, .f32⟩
  | 69 => ⟨S100000x32, .f32⟩
  | 70 => ⟨S100000x32, .f32⟩
  | 71 => ⟨S_, .f32⟩
  | 72 => ⟨S_, .f32⟩
  | 73 => ⟨S100000x32, .f32⟩
  | 74 => ⟨S100000x32, .i1⟩
  | 75 => ⟨S_, .f32⟩
  | 76 => ⟨S100000x32, .f32⟩
  | 77 => ⟨S100000x32, .f32⟩
  | 78 => ⟨S100000x32, .f32⟩
  | 79 => ⟨S32x32, .f32⟩
  | 80 => ⟨S100000x32, .f32⟩
  | 81 => ⟨S1x32, .f32⟩
  | 82 => ⟨S100000x32, .f32⟩
  | 83 => ⟨S100000x32, .f32⟩
  | 84 => ⟨S_, .f32⟩
  | 85 => ⟨S_, .f32⟩
  | 86 => ⟨S100000x32, .f32⟩
  | 87 => ⟨S100000x32, .i1⟩
  | 88 => ⟨S_, .f32⟩
  | 89 => ⟨S100000x32, .f32⟩
  | 90 => ⟨S100000x32, .f32⟩
  | 91 => ⟨S100000x32, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000x32, .f32⟩
  | 101 => ⟨S_, .f32⟩
  | 102 => ⟨S100000x32, .f32⟩
  | 103 => ⟨S3200000x1, .i32⟩
  | 104 => ⟨S100000x32, .f32⟩
  | 105 => ⟨S100000x32, .f32⟩
  | 106 => ⟨S32x32, .f32⟩
  | 107 => ⟨S100000x32, .f32⟩
  | 108 => ⟨S1x32, .f32⟩
  | 109 => ⟨S100000x32, .f32⟩
  | 110 => ⟨S100000x32, .f32⟩
  | 111 => ⟨S1x32, .f32⟩
  | 112 => ⟨S100000x32, .f32⟩
  | 113 => ⟨S100000x32, .f32⟩
  | 114 => ⟨S_, .f32⟩
  | 115 => ⟨S32, .f32⟩
  | 116 => ⟨S32, .f32⟩
  | 117 => ⟨S32, .f32⟩
  | 118 => ⟨S1x32, .f32⟩
  | 119 => ⟨S100000x32, .f32⟩
  | 120 => ⟨S100000x32, .f32⟩
  | 121 => ⟨S1x32, .f32⟩
  | 122 => ⟨S100000x32, .f32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x32, .f32⟩

abbrev hbmTy0_1 (i : Nat) : BufTy := match i % 128 with
  | 0 => ⟨S_, .f32⟩
  | 1 => ⟨S100000x32, .f32⟩
  | 2 => ⟨S100000x32, .i1⟩
  | 3 => ⟨S_, .f32⟩
  | 4 => ⟨S100000x32, .f32⟩
  | 5 => ⟨S100000x32, .f32⟩
  | 6 => ⟨S100000x32, .f32⟩
  | 7 => ⟨S32x32, .f32⟩
  | 8 => ⟨S100000x32, .f32⟩
  | 9 => ⟨S1x32, .f32⟩
  | 10 => ⟨S100000x32, .f32⟩
  | 11 => ⟨S100000x32, .f32⟩
  | 12 => ⟨S_, .f32⟩
  | 13 => ⟨S_, .f32⟩
  | 14 => ⟨S100000x32, .f32⟩
  | 15 => ⟨S100000x32, .i1⟩
  | 16 => ⟨S_, .f32⟩
  | 17 => ⟨S100000x32, .f32⟩
  | 18 => ⟨S100000x32, .f32⟩
  | 19 => ⟨S100000x32, .f32⟩
  | 20 => ⟨S_, .i32⟩
  | 21 => ⟨S3200000, .i32⟩
  | 22 => ⟨S3200000, .i1⟩
  | 23 => ⟨S_, .i32⟩
  | 24 => ⟨S3200000, .i32⟩
  | 25 => ⟨S3200000, .i32⟩
  | 26 => ⟨S3200000, .i32⟩
  | 27 => ⟨S3200000x1, .i32⟩
  | 28 => ⟨S3200000x32, .f32⟩
  | 29 => ⟨S_, .f32⟩
  | 30 => ⟨S100000x32, .f32⟩
  | 31 => ⟨S3200000x1, .i32⟩
  | 32 => ⟨S100000x32, .f32⟩
  | 33 => ⟨S100000x32, .f32⟩
  | 34 => ⟨S32x32, .f32⟩
  | 35 => ⟨S100000x32, .f32⟩
  | 36 => ⟨S1x32, .f32⟩
  | 37 => ⟨S100000x32, .f32⟩
  | 38 => ⟨S100000x32, .f32⟩
  | 39 => ⟨S1x32, .f32⟩
  | 40 => ⟨S100000x32, .f32⟩
  | 41 => ⟨S100000x32, .f32⟩
  | 42 => ⟨S_, .f32⟩
  | 43 => ⟨S32, .f32⟩
  | 44 => ⟨S32, .f32⟩
  | 45 => ⟨S32, .f32⟩
  | 46 => ⟨S1x32, .f32⟩
  | 47 => ⟨S100000x32, .f32⟩
  | 48 => ⟨S100000x32, .f32⟩
  | 49 => ⟨S1x32, .f32⟩
  | 50 => ⟨S100000x32, .f32⟩
  | 51 => ⟨S100000x32, .f32⟩
  | 52 => ⟨S1x32, .f32⟩
  | 53 => ⟨S100000x32, .f32⟩
  | 54 => ⟨S100000x32, .f32⟩
  | 55 => ⟨S_, .f32⟩
  | 56 => ⟨S_, .f32⟩
  | 57 => ⟨S100000x32, .f32⟩
  | 58 => ⟨S100000x32, .i1⟩
  | 59 => ⟨S_, .f32⟩
  | 60 => ⟨S100000x32, .f32⟩
  | 61 => ⟨S100000x32, .f32⟩
  | 62 => ⟨S100000x32, .f32⟩
  | 63 => ⟨S32x32, .f32⟩
  | 64 => ⟨S100000x32, .f32⟩
  | 65 => ⟨S1x32, .f32⟩
  | 66 => ⟨S100000x32, .f32⟩
  | 67 => ⟨S100000x32, .f32⟩
  | 68 => ⟨S_, .f32⟩
  | 69 => ⟨S_, .f32⟩
  | 70 => ⟨S100000x32, .f32⟩
  | 71 => ⟨S100000x32, .i1⟩
  | 72 => ⟨S_, .f32⟩
  | 73 => ⟨S100000x32, .f32⟩
  | 74 => ⟨S100000x32, .f32⟩
  | 75 => ⟨S100000x32, .f32⟩
  | 76 => ⟨S_, .f32⟩
  | 77 => ⟨S2048x32, .f32⟩
  | 78 => ⟨S100000x1, .i32⟩
  | 79 => ⟨S2048x32, .f32⟩
  | 80 => ⟨S_, .f32⟩
  | 81 => ⟨S2048x32, .f32⟩
  | 82 => ⟨S100000x1, .i32⟩
  | 83 => ⟨S2048x32, .f32⟩
  | 84 => ⟨S_, .f32⟩
  | 85 => ⟨S2048x32, .f32⟩
  | 86 => ⟨S100000x1, .i32⟩
  | 87 => ⟨S2048x32, .f32⟩
  | 88 => ⟨S2048x96, .f32⟩
  | 89 => ⟨S96x96, .f32⟩
  | 90 => ⟨S2048x96, .f32⟩
  | 91 => ⟨S1x96, .f32⟩
  | 92 => ⟨S2048x96, .f32⟩
  | 93 => ⟨S2048x96, .f32⟩
  | 94 => ⟨S_, .f32⟩
  | 95 => ⟨S2048x96, .f32⟩
  | 96 => ⟨S2048x96, .f32⟩
  | 97 => ⟨S96x10, .f32⟩
  | 98 => ⟨S2048x10, .f32⟩
  | 99 => ⟨S1x10, .f32⟩
  | 100 => ⟨S2048x10, .f32⟩
  | 101 => ⟨S2048x10, .f32⟩
  | 102 => ⟨S_, .f32⟩
  | 103 => ⟨S_, .f32⟩
  | 104 => ⟨S2048x10, .f32⟩
  | 105 => ⟨S2048x10, .i1⟩
  | 106 => ⟨S_, .f32⟩
  | 107 => ⟨S2048x10, .f32⟩
  | 108 => ⟨S2048x10, .f32⟩
  | 109 => ⟨S2048x10, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_1 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_2 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_3 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_v41 : Ref sig .tc := ⟨.hbm, 91, rfl⟩
abbrev main_c_4 : Ref sig .tc := ⟨.hbm, 92, rfl⟩
abbrev main_v42 : Ref sig .tc := ⟨.hbm, 93, rfl⟩
abbrev main_v43 : Ref sig .tc := ⟨.hbm, 94, rfl⟩
abbrev main_c_5 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_6 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_7 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_8 : Ref sig .tc := ⟨.hbm, 127, rfl⟩
abbrev main_call2_cst : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_9 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_v79 : Ref sig .tc := ⟨.hbm, 147, rfl⟩
abbrev main_c_10 : Ref sig .tc := ⟨.hbm, 148, rfl⟩
abbrev main_v80 : Ref sig .tc := ⟨.hbm, 149, rfl⟩
abbrev main_v81 : Ref sig .tc := ⟨.hbm, 150, rfl⟩
abbrev main_c_11 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_cst_12 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_cst_13 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_cst_14 : Ref sig .tc := ⟨.hbm, 183, rfl⟩
abbrev main_call4_cst : Ref sig .tc := ⟨.hbm, 184, rfl⟩
abbrev main_call4_v0 : Ref sig .tc := ⟨.hbm, 185, rfl⟩
abbrev main_call4_v1 : Ref sig .tc := ⟨.hbm, 186, rfl⟩
abbrev main_call4_v2 : Ref sig .tc := ⟨.hbm, 187, rfl⟩
abbrev main_call4_v3 : Ref sig .tc := ⟨.hbm, 188, rfl⟩
abbrev main_call4_v4 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_cst_15 : Ref sig .tc := ⟨.hbm, 196, rfl⟩
abbrev main_call5_cst : Ref sig .tc := ⟨.hbm, 197, rfl⟩
abbrev main_call5_v0 : Ref sig .tc := ⟨.hbm, 198, rfl⟩
abbrev main_call5_v1 : Ref sig .tc := ⟨.hbm, 199, rfl⟩
abbrev main_call5_v2 : Ref sig .tc := ⟨.hbm, 200, rfl⟩
abbrev main_call5_v3 : Ref sig .tc := ⟨.hbm, 201, rfl⟩
abbrev main_call5_v4 : Ref sig .tc := ⟨.hbm, 202, rfl⟩
abbrev main_v117 : Ref sig .tc := ⟨.hbm, 203, rfl⟩
abbrev main_cst_16 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_cst_17 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_cst_18 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_call6_cst : Ref sig .tc := ⟨.hbm, 222, rfl⟩
abbrev main_call6_v0 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_cst_19 : Ref sig .tc := ⟨.hbm, 230, rfl⟩
abbrev main_call7_cst : Ref sig .tc := ⟨.hbm, 231, rfl⟩
abbrev main_call7_v0 : Ref sig .tc := ⟨.hbm, 232, rfl⟩
abbrev main_call7_v1 : Ref sig .tc := ⟨.hbm, 233, rfl⟩
abbrev main_call7_v2 : Ref sig .tc := ⟨.hbm, 234, rfl⟩
abbrev main_call7_v3 : Ref sig .tc := ⟨.hbm, 235, rfl⟩
abbrev main_call7_v4 : Ref sig .tc := ⟨.hbm, 236, rfl⟩
abbrev main_v139 : Ref sig .tc := ⟨.hbm, 237, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  transposes_S32x32_S32x32_1_0 : S32x32.Transposes [1, 0] S32x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  bcast_S_S2048x32 : S_.BroadcastsInDim S2048x32 (![] : Fin 0 → Fin S2048x32.rank)
  bcast_S100000_S100000x1_0 : S100000.BroadcastsInDim S100000x1 (![0] : Fin 1 → Fin S100000x1.rank)
  concatenates_S2048x32_S2048x32_S2048x32_S2048x96_d1 : Shape.Concatenates [S2048x32, S2048x32, S2048x32] S2048x96 1
  transposes_S96x96_S96x96_1_0 : S96x96.Transposes [1, 0] S96x96
  bcast_S96_S1x96_1 : S96.BroadcastsInDim S1x96 (![1] : Fin 1 → Fin S1x96.rank)
  bcast_S1x96_S2048x96_0_1 : S1x96.BroadcastsInDim S2048x96 (![0, 1] : Fin 2 → Fin S2048x96.rank)
  bcast_S_S2048x96 : S_.BroadcastsInDim S2048x96 (![] : Fin 0 → Fin S2048x96.rank)
  transposes_S10x96_S96x10_1_0 : S10x96.Transposes [1, 0] S96x10
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  bcast_S_S2048x10 : S_.BroadcastsInDim S2048x10 (![] : Fin 0 → Fin S2048x10.rank)
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  scatter_S2048x32_S100000x1_S100000x32_1_0_0_1_wf : ScatterDims.WF S2048x32 S100000x1 S100000x32 [1] [0] [0] 1
  dot_S2048x96_S96x96_S2048x96_1_0_0_1_n_n_wf : DotDims.WF S2048x96 S96x96 S2048x96 [1] [0] [0] [1] [] []
  dot_S2048x96_S96x10_S2048x10_1_0_0_1_n_n_wf : DotDims.WF S2048x96 S96x10 S2048x10 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S2048x32_S100000x1_S100000x32_1_0_0_1 : ScatterDims S2048x32 S100000x1 S100000x32 where
  updateWindowDims := [1]
  insertedWindowDims := [0]
  scatterDimsToOperandDims := [0]
  indexVectorDim := 1
  wf := scatter_S2048x32_S100000x1_S100000x32_1_0_0_1_wf
def dot_S2048x96_S96x96_S2048x96_1_0_0_1_n_n : DotDims S2048x96 S96x96 S2048x96 where
  lhsContracting := [1]
  rhsContracting := [0]
  lhsNonContracting := [0]
  rhsNonContracting := [1]
  lhsBatch := []
  rhsBatch := []
  wf := dot_S2048x96_S96x96_S2048x96_1_0_0_1_n_n_wf
def dot_S2048x96_S96x10_S2048x10_1_0_0_1_n_n : DotDims S2048x96 S96x10 S2048x10 where
  lhsContracting := [1]
  rhsContracting := [0]
  lhsNonContracting := [0]
  rhsNonContracting := [1]
  lhsBatch := []
  rhsBatch := []
  wf := dot_S2048x96_S96x10_S2048x10_1_0_0_1_n_n_wf

class Facts : Prop extends Facts₀ where

variable [Facts]
-- ==== Proof.K.Mlp0.lean ====
import proofs.«416321_j46445776339725_1_alg».proof.Proof.Gen.Kernel.Launch
import proofs.«416321_j46445776339725_1_alg».proof.Proof.Gen.Kernel.Skeleton
import proofs.«416321_j46445776339725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_big : Rect S5000x32 := Rect.unit (s := S5000x32) ![0, 0] S5000x32.size inb_S5000x32_S5000x32_0_0
abbrev r0_mat : Rect S32x32 := Rect.unit (s := S32x32) ![0, 0] S32x32.size inb_S32x32_S32x32_0_0
abbrev r0_vec : Rect S32 := Rect.unit (s := S32) ![0] S32.size inb_S32_S32_0

def out0_9 (x0 : Vec F S5000x32 .f32) (x1 : Vec F S32x32 .f32) (x2 x3 x4 x5 x6 : Vec F S32 .f32) (x7 : Vec F S32x32 .f32) (x8 : Vec F S32 .f32) : Vec F S5000x32 .f32 :=
  View.canon [⟨r0_big, k0_pay1
    (k0_pay2 (View.ld x0 r0_big) (View.ld x1 r0_mat) (View.ld x2 r0_vec) (View.ld x5 r0_vec) (View.ld x6 r0_vec)
      (View.ld x3 r0_vec) (View.ld x4 r0_vec) (View.ld x7 r0_mat))
    (k0_pay3 (View.ld x8 r0_vec))⟩]

theorem cover0_9 (p0 : Vec F S5000x32 .f32) (y : S5000x32.Idx) :
    ∃ pc ∈ ([⟨r0_big, p0⟩] : List (View.Piece (Elt F) S5000x32 .f32)), y ∈ pc.1.set :=
  View.cover_of_tiled [⟨r0_big, p0⟩] S5000x32.size (by rfl) y

set_option maxHeartbeats 1000000 in

theorem sound_kernel0 (c : Dev nD) (E : Set ℕ) (i : grid0.Coords) (arg0 : Memref sig .tc .vmem S5000x32 .f32) (harg0 : arg0.IsWhole) (arg1 : Memref sig .tc .vmem S32x32 .f32) (harg1 : arg1.IsWhole) (arg2 : Memref sig .tc .vmem S32 .f32) (harg2 : arg2.IsWhole) (arg3 : Memref sig .tc .vmem S32 .f32) (harg3 : arg3.IsWhole) (arg4 : Memref sig .tc .vmem S32 .f32) (harg4 : arg4.IsWhole) (arg5 : Memref sig .tc .vmem S32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S5000x32 .f32) (harg9 : arg9.IsWhole)
    (x0 : Vec F S5000x32 .f32) (x1 : Vec F S32x32 .f32) (x2 x3 x4 x5 x6 : Vec F S32 .f32) (x7 : Vec F S32x32 .f32) (x8 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out0_9 x0 x1 x2 x3 x4 x5 x6 x7 x8)) -∗ K ⟨⟩))
      ⊢ wp frame (wpE (defs₀ (F := F)) Variants.none c none) E (cc0__gin_mlp_kernel i arg0 harg0 arg1 harg1 arg2 harg2 arg3 harg3 arg4 harg4 arg5 harg5 arg6 harg6 arg7 harg7 arg8 harg8 arg9 harg9) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem after0_in (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t ∧ (dat0 V c).after 4 t = iblk0 V c 4 t ∧ (dat0 V c).after 5 t = iblk0 V c 5 t ∧ (dat0 V c).after 6 t = iblk0 V c 6 t ∧ (dat0 V c).after 7 t = iblk0 V c 7 t ∧ (dat0 V c).after 8 t = iblk0 V c 8 t := by
  and_intros <;> rfl
theorem before0_in (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) := by
  and_intros <;> intro d <;>
  exact ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in V c t, after0_in V c t]
  rw [show (dat0 V c).Φ t.succ = (dat0 V c).Φ t.castSucc from rfl,
    show (dat0 V c).owesAt () t.succ = (dat0 V c).owesAt () t.castSucc from rfl,
    after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Mlp1.lean ====
import proofs.«416321_j46445776339725_1_alg».proof.Proof.Gen.Kernel.Launch
import proofs.«416321_j46445776339725_1_alg».proof.Proof.Gen.Kernel.Skeleton
import proofs.«416321_j46445776339725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_big : Rect S5000x32 := Rect.unit (s := S5000x32) ![0, 0] S5000x32.size inb_S5000x32_S5000x32_0_0
abbrev r1_mat : Rect S32x32 := Rect.unit (s := S32x32) ![0, 0] S32x32.size inb_S32x32_S32x32_0_0
abbrev r1_vec : Rect S32 := Rect.unit (s := S32) ![0] S32.size inb_S32_S32_0

def out1_9 (x0 : Vec F S5000x32 .f32) (x1 : Vec F S32x32 .f32) (x2 x3 x4 x5 x6 : Vec F S32 .f32) (x7 : Vec F S32x32 .f32) (x8 : Vec F S32 .f32) : Vec F S5000x32 .f32 :=
  View.canon [⟨r1_big, k1_pay1
    (k1_pay2 (View.ld x0 r1_big) (View.ld x1 r1_mat) (View.ld x2 r1_vec) (View.ld x5 r1_vec) (View.ld x6 r1_vec)
      (View.ld x3 r1_vec) (View.ld x4 r1_vec) (View.ld x7 r1_mat))
    (k1_pay3 (View.ld x8 r1_vec))⟩]

theorem cover1_9 (p0 : Vec F S5000x32 .f32) (y : S5000x32.Idx) :
    ∃ pc ∈ ([⟨r1_big, p0⟩] : List (View.Piece (Elt F) S5000x32 .f32)), y ∈ pc.1.set :=
  View.cover_of_tiled [⟨r1_big, p0⟩] S5000x32.size (by rfl) y

set_option maxHeartbeats 1000000 in

theorem sound_kernel1 (c : Dev nD) (E : Set ℕ) (i : grid1.Coords) (arg0 : Memref sig .tc .vmem S5000x32 .f32) (harg0 : arg0.IsWhole) (arg1 : Memref sig .tc .vmem S32x32 .f32) (harg1 : arg1.IsWhole) (arg2 : Memref sig .tc .vmem S32 .f32) (harg2 : arg2.IsWhole) (arg3 : Memref sig .tc .vmem S32 .f32) (harg3 : arg3.IsWhole) (arg4 : Memref sig .tc .vmem S32 .f32) (harg4 : arg4.IsWhole) (arg5 : Memref sig .tc .vmem S32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S5000x32 .f32) (harg9 : arg9.IsWhole)
    (x0 : Vec F S5000x32 .f32) (x1 : Vec F S32x32 .f32) (x2 x3 x4 x5 x6 : Vec F S32 .f32) (x7 : Vec F S32x32 .f32) (x8 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ K ⟨⟩))
      ⊢ wp frame (wpE (defs₀ (F := F)) Variants.none c none) E (cc1__gin_mlp_kernel i arg0 harg0 arg1 harg1 arg2 harg2 arg3 harg3 arg4 harg4 arg5 harg5 arg6 harg6 arg7 harg7 arg8 harg8 arg9 harg9) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem after1_in (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t ∧ (dat1 V c).after 5 t = iblk1 V c 5 t ∧ (dat1 V c).after 6 t = iblk1 V c 6 t ∧ (dat1 V c).after 7 t = iblk1 V c 7 t ∧ (dat1 V c).after 8 t = iblk1 V c 8 t := by
  and_intros <;> rfl
theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) ∧ (∀ d, (dat1 V c).before 8 t d = iblk1 V c 8 t) := by
  and_intros <;> intro d <;>
  exact ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_in V c t, after1_in V c t]
  rw [show (dat1 V c).Φ t.succ = (dat1 V c).Φ t.castSucc from rfl,
    show (dat1 V c).owesAt () t.succ = (dat1 V c).owesAt () t.castSucc from rfl,
    after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Mlp2.lean ====
import proofs.«416321_j46445776339725_1_alg».proof.Proof.Gen.Kernel.Launch
import proofs.«416321_j46445776339725_1_alg».proof.Proof.Gen.Kernel.Skeleton
import proofs.«416321_j46445776339725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_big : Rect S5000x32 := Rect.unit (s := S5000x32) ![0, 0] S5000x32.size inb_S5000x32_S5000x32_0_0
abbrev r2_mat : Rect S32x32 := Rect.unit (s := S32x32) ![0, 0] S32x32.size inb_S32x32_S32x32_0_0
abbrev r2_vec : Rect S32 := Rect.unit (s := S32) ![0] S32.size inb_S32_S32_0

def out2_9 (x0 : Vec F S5000x32 .f32) (x1 : Vec F S32x32 .f32) (x2 x3 x4 x5 x6 : Vec F S32 .f32) (x7 : Vec F S32x32 .f32) (x8 : Vec F S32 .f32) : Vec F S5000x32 .f32 :=
  View.canon [⟨r2_big, k2_pay1
    (k2_pay2 (View.ld x0 r2_big) (View.ld x1 r2_mat) (View.ld x2 r2_vec) (View.ld x5 r2_vec) (View.ld x6 r2_vec)
      (View.ld x3 r2_vec) (View.ld x4 r2_vec) (View.ld x7 r2_mat))
    (k2_pay3 (View.ld x8 r2_vec))⟩]

theorem cover2_9 (p0 : Vec F S5000x32 .f32) (y : S5000x32.Idx) :
    ∃ pc ∈ ([⟨r2_big, p0⟩] : List (View.Piece (Elt F) S5000x32 .f32)), y ∈ pc.1.set :=
  View.cover_of_tiled [⟨r2_big, p0⟩] S5000x32.size (by rfl) y

set_option maxHeartbeats 1000000 in

theorem sound_kernel2 (c : Dev nD) (E : Set ℕ) (i : grid2.Coords) (arg0 : Memref sig .tc .vmem S5000x32 .f32) (harg0 : arg0.IsWhole) (arg1 : Memref sig .tc .vmem S32x32 .f32) (harg1 : arg1.IsWhole) (arg2 : Memref sig .tc .vmem S32 .f32) (harg2 : arg2.IsWhole) (arg3 : Memref sig .tc .vmem S32 .f32) (harg3 : arg3.IsWhole) (arg4 : Memref sig .tc .vmem S32 .f32) (harg4 : arg4.IsWhole) (arg5 : Memref sig .tc .vmem S32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S5000x32 .f32) (harg9 : arg9.IsWhole)
    (x0 : Vec F S5000x32 .f32) (x1 : Vec F S32x32 .f32) (x2 x3 x4 x5 x6 : Vec F S32 .f32) (x7 : Vec F S32x32 .f32) (x8 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ K ⟨⟩))
      ⊢ wp frame (wpE (defs₀ (F := F)) Variants.none c none) E (cc2__gin_mlp_kernel i arg0 harg0 arg1 harg1 arg2 harg2 arg3 harg3 arg4 harg4 arg5 harg5 arg6 harg6 arg7 harg7 arg8 harg8 arg9 harg9) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem after2_in (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t ∧ (dat2 V c).after 7 t = iblk2 V c 7 t ∧ (dat2 V c).after 8 t = iblk2 V c 8 t := by
  and_intros <;> rfl
theorem before2_in (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) ∧ (∀ d, (dat2 V c).before 7 t d = iblk2 V c 7 t) ∧ (∀ d, (dat2 V c).before 8 t d = iblk2 V c 8 t) := by
  and_intros <;> intro d <;>
  exact ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_in V c t, after2_in V c t]
  rw [show (dat2 V c).Φ t.succ = (dat2 V c).Φ t.castSucc from rfl,
    show (dat2 V c).owesAt () t.succ = (dat2 V c).owesAt () t.castSucc from rfl,
    after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Pool3.lean ====
import proofs.«416321_j46445776339725_1_alg».proof.Proof.Gen.Kernel.Launch
import proofs.«416321_j46445776339725_1_alg».proof.Proof.Gen.Kernel.Skeleton
import proofs.«416321_j46445776339725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S2048x96 .f32
  | 0, h => k3_pay2 (iblk3 V c 0 ⟨0, h⟩) (iblk3 V c 1 ⟨0, h⟩) k3_pay1
  | n + 1, h => k3_pay2 (iblk3 V c 0 ⟨n + 1, h⟩) (iblk3 V c 1 ⟨n + 1, h⟩) (acc3 c n (Nat.lt_of_succ_lt h))

def Φ3 (c : Dev nD) (t : Fin (cfg3.N + 1)) : sProp 𝕄 :=
  iprop((∃ r, prngReg c r) ∗ Pipeline.scopedRestBut (Ix := Unit) (Name := ℕ) (U := UR sig nD τ) (Lvl := ℕ) (Val := Elt F) spec3 c [cc3_scratch0]
    ∗ (if h : t.val = 0 then iprop(∃ f : Buf (Elt F) ((c : Thread nD τ).loc cc3_scratch0), ((c : Thread nD τ).loc cc3_scratch0) ↦{fullShare} f)
       else iprop(((c : Thread nD τ).loc cc3_scratch0) ↦{fullShare} (acc3 V c (t.val - 1) (by have := t.isLt; omega)))))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Φ3 V c t
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = acc3 V c t.val t.isLt := by dsimp only [dat3]

abbrev cond3 (i : grid3.Coords) : Prop :=
  (Scalar.cmpi .ne (Scalar.extui (Scalar.cmpi .eq (BitVec.ofNat 32 (i 0).val) 0#32)) 0#32 : BitVec 1) = 1#1

theorem hcond3 : ∀ t : Fin cfg3.N, cond3 (grid3.coords t) ↔ t.val = 0 :=
  (by decide +kernel : ∀ t : Fin grid3.N, cond3 (grid3.coords t) ↔ t.val = 0)

abbrev r3_0 : Rect S2048x96 := Rect.unit (s := S2048x96) ![0, 0] S2048x96.size inb_S2048x96_S2048x96_0_0

theorem hz3 : (![0, 0] : Fin S2048x96.rank → Nat) = fun _ => 0 := funext fun a => by fin_cases a <;> rfl

theorem cover3 (p : Vec F S2048x96 .f32) (L : List (View.Piece (Elt F) S2048x96 .f32)) (y : S2048x96.Idx) :
    ∃ pc ∈ ((⟨r3_0, p⟩ : View.Piece (Elt F) S2048x96 .f32) :: L), y ∈ pc.1.set := by
  obtain ⟨pc, hpc, hy⟩ := View.cover_of_tiled [(⟨r3_0, p⟩ : View.Piece (Elt F) S2048x96 .f32)] S2048x96.size (by rfl) y
  rw [List.mem_singleton] at hpc
  subst hpc
  exact ⟨_, List.mem_cons_self, hy⟩

set_option maxHeartbeats 1000000 in

theorem sound_kernel3_first (c : Dev nD) (E : Set ℕ) (i : grid3.Coords) (hc : cond3 i)
    (arg1 : Memref sig .tc .vmem S4000x96 .f32) (harg1 : arg1.IsWhole) (arg2 : Memref sig .tc .vmem S4000x1 .i32) (harg2 : arg2.IsWhole)
    (arg3 : Memref sig .tc .vmem S2048x96 .f32) (harg3 : arg3.IsWhole) (arg4 : Memref sig .tc .vmem S2048x96 .f32) (harg4 : arg4.IsWhole)
    (x0 : Vec F S4000x96 .f32) (x1 : Vec F S4000x1 .i32) (K : PUnit → sProp 𝕄) :
    iprop(owns (c : Thread nD τ) arg1 fullShare x0 ∗ owns (c : Thread nD τ) arg2 fullShare x1
        ∗ (∃ d, owns (c : Thread nD τ) arg3 fullShare d) ∗ (∃ s, owns (c : Thread nD τ) arg4 fullShare s)
        ∗ (iprop(owns (c : Thread nD τ) arg1 fullShare x0 ∗ owns (c : Thread nD τ) arg2 fullShare x1
            ∗ owns (c : Thread nD τ) arg3 fullShare (k3_pay2 x0 x1 k3_pay1) ∗ owns (c : Thread nD τ) arg4 fullShare (k3_pay2 x0 x1 k3_pay1)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d3, %f3, -, H3⟩, ⟨%d4, %f4, -, H4⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (cover3 _ _), View.canon_unit_zero hz3]
    sl_unfold_words
    rw [View.readCov_eq_canon_ld _ _ _ (cover3 _ _), View.canon_cons_unit_zero (S := S2048x96) hz3,
      View.ld_unit_zero (S := S2048x96) hz3, View.readCov_unit_zero (S := S2048x96) _ hz3]
    simp only [View.readAt_eq_ld, View.ld_unit_zero (S := S4000x96) hz3, View.ld_unit_zero (S := S4000x1) hz3]
  · iexists _; isplitr
    swap; · iexact H4
    ipureintro
    sl_unfold_words
    rw [View.read_writes_eq_canon _ _ _ (cover3 _ _), View.canon_cons_unit_zero (S := S2048x96) hz3,
      View.readCov_unit_zero (S := S2048x96) _ hz3]
    simp only [View.readAt_eq_ld, View.ld_unit_zero (S := S4000x96) hz3, View.ld_unit_zero (S := S4000x1) hz3]

set_option maxHeartbeats 1000000 in

theorem sound_kernel3_later (c : Dev nD) (E : Set ℕ) (i : grid3.Coords) (hc : ¬cond3 i)
    (arg1 : Memref sig .tc .vmem S4000x96 .f32) (harg1 : arg1.IsWhole) (arg2 : Memref sig .tc .vmem S4000x1 .i32) (harg2 : arg2.IsWhole)
    (arg3 : Memref sig .tc .vmem S2048x96 .f32) (harg3 : arg3.IsWhole) (arg4 : Memref sig .tc .vmem S2048x96 .f32) (harg4 : arg4.IsWhole)
    (x0 : Vec F S4000x96 .f32) (x1 : Vec F S4000x1 .i32) (a : Vec F S2048x96 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a
        ∗ (iprop(owns (c : Thread nD τ) arg1 fullShare x0 ∗ owns (c : Thread nD τ) arg2 fullShare x1
            ∗ owns (c : Thread nD τ) arg3 fullShare (k3_pay2 x0 x1 a) ∗ owns (c : Thread nD τ) arg4 fullShare (k3_pay2 x0 x1 a)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (cover3 _ _), View.canon_unit_zero hz3]
    sl_unfold_words
    rw [View.readCov_unit_zero (S := S2048x96) _ hz3]
    simp only [View.readAt_eq_ld, View.ld_unit_zero (S := S4000x96) hz3, View.ld_unit_zero (S := S4000x1) hz3,
      View.ld_unit_zero (S := S2048x96) hz3]
  · iexists _; isplitr
    swap; · iexact H4
    ipureintro
    sl_unfold_words
    rw [View.read_writes_eq_canon _ _ _ (cover3 _ _), View.canon_unit_zero hz3]
    simp only [View.readAt_eq_ld, View.ld_unit_zero (S := S4000x96) hz3, View.ld_unit_zero (S := S4000x1) hz3,
      View.ld_unit_zero (S := S2048x96) hz3]

theorem acc3_first (c : Dev nD) (t : Fin cfg3.N) (h : t.val = 0) :
    acc3 V c t.val t.isLt = k3_pay2 (iblk3 V c 0 t) (iblk3 V c 1 t) k3_pay1 := by
  obtain ⟨tv, ht⟩ := t
  cases tv with
  | zero => rfl
  | succ n => exact absurd h (Nat.succ_ne_zero n)

theorem acc3_later (c : Dev nD) (t : Fin cfg3.N) (h : t.val ≠ 0) :
    acc3 V c t.val t.isLt
      = k3_pay2 (iblk3 V c 0 t) (iblk3 V c 1 t) (acc3 V c (t.val - 1) (Nat.lt_of_le_of_lt (Nat.sub_le _ _) t.isLt)) := by
  obtain ⟨tv, ht⟩ := t
  cases tv with
  | zero => exact absurd rfl h
  | succ n => rfl

abbrev scM3 : Memref sig .tc .vmem S2048x96 .f32 := Memref.whole cc3_scratch0

theorem Φ3_first (c : Dev nD) (t : Fin cfg3.N) (h : t.val = 0) :
    (Φ3 V c t.castSucc : sProp 𝕄)
      = iprop((∃ r, prngReg c r) ∗ Pipeline.scopedRestBut (Ix := Unit) (Name := ℕ) (U := UR sig nD τ) (Lvl := ℕ) (Val := Elt F) spec3 c [cc3_scratch0]
          ∗ (∃ s, owns (c : Thread nD τ) scM3 fullShare s)) := by
  unfold Φ3
  rw [dif_pos (show t.castSucc.val = 0 from h)]
  simp only [scM3, owns_whole]; try rfl

theorem Φ3_later (c : Dev nD) (t : Fin cfg3.N) (h : t.val ≠ 0) :
    (Φ3 V c t.castSucc : sProp 𝕄)
      = iprop((∃ r, prngReg c r) ∗ Pipeline.scopedRestBut (Ix := Unit) (Name := ℕ) (U := UR sig nD τ) (Lvl := ℕ) (Val := Elt F) spec3 c [cc3_scratch0]
          ∗ owns (c : Thread nD τ) scM3 fullShare (acc3 V c (t.val - 1) (Nat.lt_of_le_of_lt (Nat.sub_le _ _) t.isLt))) := by
  unfold Φ3
  rw [dif_neg (show ¬ t.castSucc.val = 0 from h)]
  simp only [scM3, owns_whole]; try rfl

theorem Φ3_succ (c : Dev nD) (t : Fin cfg3.N) :
    (Φ3 V c t.succ : sProp 𝕄)
      = iprop((∃ r, prngReg c r) ∗ Pipeline.scopedRestBut (Ix := Unit) (Name := ℕ) (U := UR sig nD τ) (Lvl := ℕ) (Val := Elt F) spec3 c [cc3_scratch0]
          ∗ owns (c : Thread nD τ) scM3 fullShare (acc3 V c t.val t.isLt)) := by
  unfold Φ3
  rw [dif_neg (show ¬ t.succ.val = 0 from Nat.succ_ne_zero _)]
  simp only [scM3, owns_whole]; try rfl

theorem after3_in (c : Dev nD) (t : Fin cfg3.N) :
    (dat3 V c).after 0 t = iblk3 V c 0 t ∧ (dat3 V c).after 1 t = iblk3 V c 1 t := by
  and_intros <;> rfl
theorem before3_in (c : Dev nD) (t : Fin cfg3.N) :
    (∀ d, (dat3 V c).before 0 t d = iblk3 V c 0 t) ∧ (∀ d, (dat3 V c).before 1 t d = iblk3 V c 1 t) := by
  and_intros <;> intro d <;>
  exact ((dat3 V c).before_in_eq_fetched _ rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_in V c t, after3_in V c t]
  rw [show (dat3 V c).owesAt () t.succ = (dat3 V c).owesAt () t.castSucc from rfl,
    after3_2,
    show (dat3 V c).Φ t.castSucc = Φ3 V c t.castSucc from rfl, show (dat3 V c).Φ t.succ = Φ3 V c t.succ from rfl, Φ3_succ]
  by_cases h : t.val = 0
  · rw [Φ3_first V c t h, acc3_first V c t h]
    iintro ⟨⟨Hr, Hrest, ⟨%s, Hs⟩⟩, Ho, ⟨%d0, H0⟩, ⟨%d1, H1⟩, ⟨%d2, H2⟩⟩
    iapply (sound_kernel3_first c Set.univ (grid3.coords t) ((hcond3 t).2 h) _ _ _ _ _ _ _ _ (iblk3 V c 0 t) (iblk3 V c 1 t) _)
    isplitl [H0]; · iexact H0
    isplitl [H1]; · iexact H1
    isplitl [H2]; · iexists _; iexact H2
    isplitl [Hs]; · iexists s; iexact Hs
    iintro ⟨H0, H1, H2, Hs⟩
    isplitl [Hr Hrest Hs]
    · isplitl [Hr]; · iexact Hr
      isplitl [Hrest]; · iexact Hrest
      iexact Hs
    isplitl [Ho]; · iexact Ho
    isplitl [H0]; · iexact H0
    isplitl [H1]; · iexact H1
    iexact H2
  · rw [Φ3_later V c t h, acc3_later V c t h]
    iintro ⟨⟨Hr, Hrest, Hs⟩, Ho, ⟨%d0, H0⟩, ⟨%d1, H1⟩, ⟨%d2, H2⟩⟩
    iapply (sound_kernel3_later c Set.univ (grid3.coords t) (fun hc => h ((hcond3 t).1 hc)) _ _ _ _ _ _ _ _ (iblk3 V c 0 t) (iblk3 V c 1 t) _ _)
    isplitl [H0]; · iexact H0
    isplitl [H1]; · iexact H1
    isplitl [H2]; · iexists _; iexact H2
    isplitl [Hs]; · iexact Hs
    iintro ⟨H0, H1, H2, Hs⟩
    isplitl [Hr Hrest Hs]
    · isplitl [Hr]; · iexact Hr
      isplitl [Hrest]; · iexact Hrest
      iexact Hs
    isplitl [Ho]; · iexact Ho
    isplitl [H0]; · iexact H0
    isplitl [H1]; · iexact H1
    iexact H2

theorem body_obligation3 (c : Dev nD) : BodyObligation (dat3 (F := F) V c) (defs₀ (F := F)) Variants.none () Set.univ := fun t => by
  rw [bigSep_W3, bigSep_W3]
  exact sound_body3 V c t

theorem Φ3_in (c : Dev nD) :
    iprop((∃ r, prngReg c r) ∗ Pipeline.scopedRest (Ix := Unit) (Name := ℕ) (U := UR sig nD τ) (Lvl := ℕ) (Val := Elt F) spec3 c)
      ⊢ (Φ3 V c 0 : sProp 𝕄) := by
  rw [scopedRest3_split]
  unfold Φ3
  rw [dif_pos (show (0 : Fin (cfg3.N + 1)).val = 0 from rfl)]
  iintro ⟨Hr, Hs, Hrest⟩
  isplitl [Hr]; · iexact Hr
  isplitl [Hrest]; · iexact Hrest
  iexact Hs

theorem Φ3_out (c : Dev nD) :
    (Φ3 V c (Fin.last cfg3.N) : sProp 𝕄)
      ⊢ iprop((∃ r, prngReg c r) ∗ Pipeline.scopedRest (Ix := Unit) (Name := ℕ) (U := UR sig nD τ) (Lvl := ℕ) (Val := Elt F) spec3 c) := by
  rw [scopedRest3_split]
  unfold Φ3
  rw [dif_neg (show ¬ (Fin.last cfg3.N).val = 0 from fun h => by
    have h25 : grid3.N = 25 := N_3
    rw [Fin.val_last] at h
    change grid3.N = 0 at h
    omega)]
  iintro ⟨Hr, Hrest, Hs⟩
  isplitl [Hr]; · iexact Hr
  isplitl [Hs]; · iexists _; iexact Hs
  iexact Hrest

end Cert.Kernel.Hand

end
-- ==== Proof.K.Final4.lean ====
import proofs.«416321_j46445776339725_1_alg».proof.Proof.Gen.Kernel.Launch
import proofs.«416321_j46445776339725_1_alg».proof.Proof.Gen.Kernel.Skeleton
import proofs.«416321_j46445776339725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S512x96 := Rect.unit (s := S512x96) ![0, 0] S512x96.size inb_S512x96_S512x96_0_0
abbrev r4_1 : Rect S96x96 := Rect.unit (s := S96x96) ![0, 0] S96x96.size inb_S96x96_S96x96_0_0
abbrev r4_2 : Rect S96 := Rect.unit (s := S96) ![0] S96.size inb_S96_S96_0
abbrev r4_3 : Rect S10x96 := Rect.unit (s := S10x96) ![0, 0] S10x96.size inb_S10x96_S10x96_0_0
abbrev r4_4 : Rect S10 := Rect.unit (s := S10) ![0] S10.size inb_S10_S10_0
abbrev r4_5 : Rect S512x10 := Rect.unit (s := S512x10) ![0, 0] S512x10.size inb_S512x10_S512x10_0_0

def out4_5 (x0 : Vec F S512x96 .f32) (x1 : Vec F S96x96 .f32) (x2 : Vec F S96 .f32) (x3 : Vec F S10x96 .f32) (x4 : Vec F S10 .f32) : Vec F S512x10 .f32 :=
  View.canon [⟨r4_5, k4_pay1 (View.ld x0 r4_0) (View.ld x1 r4_1) (View.ld x2 r4_2) (View.ld x3 r4_3) (View.ld x4 r4_4)⟩]

theorem cover4_5 (p0 : Vec F S512x10 .f32) (y : S512x10.Idx) :
    ∃ pc ∈ ([⟨r4_5, p0⟩] : List (View.Piece (Elt F) S512x10 .f32)), y ∈ pc.1.set :=
  View.cover_of_tiled [⟨r4_5, p0⟩] S512x10.size (by rfl) y

set_option maxHeartbeats 1000000 in

theorem sound_kernel4 (c : Dev nD) (E : Set ℕ) (i : grid4.Coords)
    (arg1 : Memref sig .tc .vmem S512x96 .f32) (harg1 : arg1.IsWhole) (arg2 : Memref sig .tc .vmem S96x96 .f32) (harg2 : arg2.IsWhole)
    (arg3 : Memref sig .tc .vmem S96 .f32) (harg3 : arg3.IsWhole) (arg4 : Memref sig .tc .vmem S10x96 .f32) (harg4 : arg4.IsWhole)
    (arg5 : Memref sig .tc .vmem S10 .f32) (harg5 : arg5.IsWhole) (arg6 : Memref sig .tc .vmem S512x10 .f32) (harg6 : arg6.IsWhole)
    (x0 : Vec F S512x96 .f32) (x1 : Vec F S96x96 .f32) (x2 : Vec F S96 .f32) (x3 : Vec F S10x96 .f32) (x4 : Vec F S10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__final_mlp_kernel i arg1 harg1 arg2 harg2 arg3 harg3 arg4 harg4 arg5 harg5 arg6 harg6) K := by
  simp only [cc4__final_mlp_kernel_eq_skeleton]; unfold cc4__final_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem after4_in (c : Dev nD) (t : Fin cfg4.N) :
    (dat4 V c).after 0 t = iblk4 V c 0 t ∧ (dat4 V c).after 1 t = iblk4 V c 1 t ∧ (dat4 V c).after 2 t = iblk4 V c 2 t ∧ (dat4 V c).after 3 t = iblk4 V c 3 t ∧ (dat4 V c).after 4 t = iblk4 V c 4 t := by
  and_intros <;> rfl
theorem before4_in (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) ∧ (∀ d, (dat4 V c).before 4 t d = iblk4 V c 4 t) := by
  and_intros <;> intro d <;>
  exact ((dat4 V c).before_in_eq_fetched _ rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_in V c t, after4_in V c t]
  rw [show (dat4 V c).Φ t.succ = (dat4 V c).Φ t.castSucc from rfl,
    show (dat4 V c).owesAt () t.succ = (dat4 V c).owesAt () t.castSucc from rfl,
    after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
import proofs.«416321_j46445776339725_1_alg».proof.Proof.K.Mlp0
import proofs.«416321_j46445776339725_1_alg».proof.Proof.K.Mlp1
import proofs.«416321_j46445776339725_1_alg».proof.Proof.K.Mlp2
import proofs.«416321_j46445776339725_1_alg».proof.Proof.K.Pool3
import proofs.«416321_j46445776339725_1_alg».proof.Proof.K.Final4
import proofs.«416321_j46445776339725_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb

abbrev V9 : (c : Dev nD) → (b : Ref sig .tc) → Buf (Elt F) ((c : Thread nD τ).loc b) := fun c b => W9 m ρ c b

theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

theorem withArrays_keep {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb
    exact (Pipeline.withArrays_arr win hinj c V A w).trans (h w rfl)
  · exact Pipeline.withArrays_of_ne win c V A b fun w e => hb ⟨w, e⟩

theorem W2_keep (c : Dev nD) (b : Ref sig .tc) (h : ∀ w, Pipeline.arrRef spec0 w = b → (cfg0.win w).isOut = false) :
    W2 m ρ c (Proc.devRef .tc b) = W1 m ρ c (Proc.devRef .tc b) := by
  unfold W2
  exact withArrays_keep spec0 launch0.win.arr_inj c _ _ b fun w e =>
    ((dat0 (V1 m ρ) c).arrAt_in w (h w e) _).trans (A_eq0 (V1 m ρ) c w)
theorem W4_keep (c : Dev nD) (b : Ref sig .tc) (h : ∀ w, Pipeline.arrRef spec1 w = b → (cfg1.win w).isOut = false) :
    W4 m ρ c (Proc.devRef .tc b) = W3 m ρ c (Proc.devRef .tc b) := by
  unfold W4
  exact withArrays_keep spec1 launch1.win.arr_inj c _ _ b fun w e =>
    ((dat1 (V3 m ρ) c).arrAt_in w (h w e) _).trans (A_eq1 (V3 m ρ) c w)
theorem W6_keep (c : Dev nD) (b : Ref sig .tc) (h : ∀ w, Pipeline.arrRef spec2 w = b → (cfg2.win w).isOut = false) :
    W6 m ρ c (Proc.devRef .tc b) = W5 m ρ c (Proc.devRef .tc b) := by
  unfold W6
  exact withArrays_keep spec2 launch2.win.arr_inj c _ _ b fun w e =>
    ((dat2 (V5 m ρ) c).arrAt_in w (h w e) _).trans (A_eq2 (V5 m ρ) c w)
theorem W8_keep (c : Dev nD) (b : Ref sig .tc) (h : ∀ w, Pipeline.arrRef spec3 w = b → (cfg3.win w).isOut = false) :
    W8 m ρ c (Proc.devRef .tc b) = W7 m ρ c (Proc.devRef .tc b) := by
  unfold W8
  exact withArrays_keep spec3 launch3.win.arr_inj c _ _ b fun w e =>
    ((dat3 (V7 m ρ) c).arrAt_in w (h w e) _).trans (A_eq3 (V7 m ρ) c w)
theorem W9_keep (c : Dev nD) (b : Ref sig .tc) (h : ∀ w, Pipeline.arrRef spec4 w = b → (cfg4.win w).isOut = false) :
    W9 m ρ c (Proc.devRef .tc b) = W8 m ρ c (Proc.devRef .tc b) := by
  unfold W9
  exact withArrays_keep spec4 launch4.win.arr_inj c _ _ b fun w e =>
    ((dat4 (V8 m ρ) c).arrAt_in w (h w e) _).trans (A_eq4 (V8 m ρ) c w)

/-- `keepJ b`: no host stretch and no region before boundary `J` writes the buffer `b`. -/
abbrev keep1 (b : Ref sig .tc) : Prop := b ∉ hostOps0_W
abbrev keep2 (b : Ref sig .tc) : Prop := keep1 b ∧ ∀ w, Pipeline.arrRef spec0 w = b → (cfg0.win w).isOut = false
abbrev keep3 (b : Ref sig .tc) : Prop := keep2 b ∧ b ∉ hostOps1_W
abbrev keep4 (b : Ref sig .tc) : Prop := keep3 b ∧ ∀ w, Pipeline.arrRef spec1 w = b → (cfg1.win w).isOut = false
abbrev keep5 (b : Ref sig .tc) : Prop := keep4 b ∧ b ∉ hostOps2_W
abbrev keep6 (b : Ref sig .tc) : Prop := keep5 b ∧ ∀ w, Pipeline.arrRef spec2 w = b → (cfg2.win w).isOut = false
abbrev keep7 (b : Ref sig .tc) : Prop := keep6 b ∧ b ∉ hostOps3_W
abbrev keep8 (b : Ref sig .tc) : Prop := keep7 b ∧ ∀ w, Pipeline.arrRef spec3 w = b → (cfg3.win w).isOut = false
abbrev keep9 (b : Ref sig .tc) : Prop := keep8 b ∧ ∀ w, Pipeline.arrRef spec4 w = b → (cfg4.win w).isOut = false

section
variable (c : Dev nD) (b : Ref sig .tc)
/-- A buffer nothing has written holds its launch contents, boundary by boundary. -/
theorem V1_keep (h : keep1 b) : V1 m ρ c b = m ((c : Thread nD τ).loc b) :=
  StableHlo.after_of_writes_sub (r := b) hostOps0 (W0 m ρ c) hostOps0_writes h
theorem V2_keep (h : keep2 b) : V2 m ρ c b = m ((c : Thread nD τ).loc b) :=
  (W2_keep m ρ c b h.2).trans (V1_keep m ρ c b h.1)
theorem V3_keep (h : keep3 b) : V3 m ρ c b = m ((c : Thread nD τ).loc b) :=
  (StableHlo.after_of_writes_sub (r := b) hostOps1 (W2 m ρ c) hostOps1_writes h.2).trans (V2_keep m ρ c b h.1)
theorem V4_keep (h : keep4 b) : V4 m ρ c b = m ((c : Thread nD τ).loc b) :=
  (W4_keep m ρ c b h.2).trans (V3_keep m ρ c b h.1)
theorem V5_keep (h : keep5 b) : V5 m ρ c b = m ((c : Thread nD τ).loc b) :=
  (StableHlo.after_of_writes_sub (r := b) hostOps2 (W4 m ρ c) hostOps2_writes h.2).trans (V4_keep m ρ c b h.1)
theorem V6_keep (h : keep6 b) : V6 m ρ c b = m ((c : Thread nD τ).loc b) :=
  (W6_keep m ρ c b h.2).trans (V5_keep m ρ c b h.1)
theorem V7_keep (h : keep7 b) : V7 m ρ c b = m ((c : Thread nD τ).loc b) :=
  (StableHlo.after_of_writes_sub (r := b) hostOps3 (W6 m ρ c) hostOps3_writes h.2).trans (V6_keep m ρ c b h.1)
theorem V8_keep (h : keep8 b) : V8 m ρ c b = m ((c : Thread nD τ).loc b) :=
  (W8_keep m ρ c b h.2).trans (V7_keep m ρ c b h.1)
theorem V9_keep (h : keep9 b) : V9 m ρ c b = m ((c : Thread nD τ).loc b) :=
  (W9_keep m ρ c b h.2).trans (V8_keep m ρ c b h.1)
end

theorem W9_out (c : Dev nD) : W9 m ρ c (Proc.devRef .tc main_v43) = (dat4 (V8 m ρ) c).arrAt 5 cfg4.N :=
  W9_arr m ρ c 5

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Φ3 (V7 m ρ) c 0 from rfl]
    have h := Φ3_in (V7 m ρ) c
    iintro ⟨Hp, -, Hr⟩
    iapply h
    isplitl [Hp]; · iexact Hp
    iexact Hr
  hout c := by
    rw [Pipeline.ownSems0_none, show (pdats m ρ 3 c).Φ (Fin.last _) = Φ3 (V7 m ρ) c (Fin.last cfg3.N) from rfl]
    have h := Φ3_out (V7 m ρ) c
    iintro H
    ihave H' := h $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ) ]

theorem main_run (c : Dev nD) : main (F := F) c = Pipeline.Seg.run (segs m ρ) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31]

theorem run_args : θ_run defs (onTc (τ := τ) (main (F := F))) ⟨m, fun _ => 0, ρ⟩ (fun r => ∀ c : Dev nD,
      r.2.mem ((c.tc : Thread nD τ).loc main_v43) = W9 m ρ c (Proc.devRef .tc main_v43)
      ∧ ∀ b ∈ args, r.2.mem ((c.tc : Thread nD τ).loc b) = m ((c.tc : Thread nD τ).loc b)) :=
  have hk : ∀ b ∈ args, ¬ (Proc.devRef .tc b : DevRef τ sig).isScoped ∧ keep9 b := by decide +kernel
  (θ_run _ _ _).mono (fun r h c =>
    ⟨h c _ (mem_uc main_v43 (by decide)),
     fun b hb => (h c _ (mem_uc b (hk b hb).1)).trans (V9_keep m ρ c b (hk b hb).2)⟩) (run m ρ)

end Cert.Kernel.Hand

end
-- ==== Proof.KI.Mlp0.lean ====
import proofs.«416321_j46445776339725_1_alg».proof.Proof.Gen.KernelIdeal.Launch
import proofs.«416321_j46445776339725_1_alg».proof.Proof.Gen.KernelIdeal.Skeleton
import proofs.«416321_j46445776339725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_big : Rect S5000x32 := Rect.unit (s := S5000x32) ![0, 0] S5000x32.size inb_S5000x32_S5000x32_0_0
abbrev r0_mat : Rect S32x32 := Rect.unit (s := S32x32) ![0, 0] S32x32.size inb_S32x32_S32x32_0_0
abbrev r0_vec : Rect S32 := Rect.unit (s := S32) ![0] S32.size inb_S32_S32_0

def out0_9 (x0 : Vec F S5000x32 .f32) (x1 : Vec F S32x32 .f32) (x2 x3 x4 x5 x6 : Vec F S32 .f32) (x7 : Vec F S32x32 .f32) (x8 : Vec F S32 .f32) : Vec F S5000x32 .f32 :=
  View.canon [⟨r0_big, k0_pay1
    (k0_pay2 (View.ld x0 r0_big) (View.ld x1 r0_mat) (View.ld x2 r0_vec) (View.ld x5 r0_vec) (View.ld x6 r0_vec)
      (View.ld x3 r0_vec) (View.ld x4 r0_vec) (View.ld x7 r0_mat))
    (k0_pay3 (View.ld x8 r0_vec))⟩]

theorem cover0_9 (p0 : Vec F S5000x32 .f32) (y : S5000x32.Idx) :
    ∃ pc ∈ ([⟨r0_big, p0⟩] : List (View.Piece (Elt F) S5000x32 .f32)), y ∈ pc.1.set :=
  View.cover_of_tiled [⟨r0_big, p0⟩] S5000x32.size (by rfl) y

set_option maxHeartbeats 1000000 in

theorem sound_kernel0 (c : Dev nD) (E : Set ℕ) (i : grid0.Coords) (arg0 : Memref sig .tc .vmem S5000x32 .f32) (harg0 : arg0.IsWhole) (arg1 : Memref sig .tc .vmem S32x32 .f32) (harg1 : arg1.IsWhole) (arg2 : Memref sig .tc .vmem S32 .f32) (harg2 : arg2.IsWhole) (arg3 : Memref sig .tc .vmem S32 .f32) (harg3 : arg3.IsWhole) (arg4 : Memref sig .tc .vmem S32 .f32) (harg4 : arg4.IsWhole) (arg5 : Memref sig .tc .vmem S32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S5000x32 .f32) (harg9 : arg9.IsWhole)
    (x0 : Vec F S5000x32 .f32) (x1 : Vec F S32x32 .f32) (x2 x3 x4 x5 x6 : Vec F S32 .f32) (x7 : Vec F S32x32 .f32) (x8 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out0_9 x0 x1 x2 x3 x4 x5 x6 x7 x8)) -∗ K ⟨⟩))
      ⊢ wp frame (wpE (defs₀ (F := F)) Variants.none c none) E (cc0__gin_mlp_kernel i arg0 harg0 arg1 harg1 arg2 harg2 arg3 harg3 arg4 harg4 arg5 harg5 arg6 harg6 arg7 harg7 arg8 harg8 arg9 harg9) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem after0_in (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t ∧ (dat0 V c).after 4 t = iblk0 V c 4 t ∧ (dat0 V c).after 5 t = iblk0 V c 5 t ∧ (dat0 V c).after 6 t = iblk0 V c 6 t ∧ (dat0 V c).after 7 t = iblk0 V c 7 t ∧ (dat0 V c).after 8 t = iblk0 V c 8 t := by
  and_intros <;> rfl
theorem before0_in (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) := by
  and_intros <;> intro d <;>
  exact ((dat0 V c).before_in_eq_fetched _ rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in V c t, after0_in V c t]
  rw [show (dat0 V c).Φ t.succ = (dat0 V c).Φ t.castSucc from rfl,
    show (dat0 V c).owesAt () t.succ = (dat0 V c).owesAt () t.castSucc from rfl,
    after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Mlp1.lean ====
import proofs.«416321_j46445776339725_1_alg».proof.Proof.Gen.KernelIdeal.Launch
import proofs.«416321_j46445776339725_1_alg».proof.Proof.Gen.KernelIdeal.Skeleton
import proofs.«416321_j46445776339725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_big : Rect S5000x32 := Rect.unit (s := S5000x32) ![0, 0] S5000x32.size inb_S5000x32_S5000x32_0_0
abbrev r1_mat : Rect S32x32 := Rect.unit (s := S32x32) ![0, 0] S32x32.size inb_S32x32_S32x32_0_0
abbrev r1_vec : Rect S32 := Rect.unit (s := S32) ![0] S32.size inb_S32_S32_0

def out1_9 (x0 : Vec F S5000x32 .f32) (x1 : Vec F S32x32 .f32) (x2 x3 x4 x5 x6 : Vec F S32 .f32) (x7 : Vec F S32x32 .f32) (x8 : Vec F S32 .f32) : Vec F S5000x32 .f32 :=
  View.canon [⟨r1_big, k1_pay1
    (k1_pay2 (View.ld x0 r1_big) (View.ld x1 r1_mat) (View.ld x2 r1_vec) (View.ld x5 r1_vec) (View.ld x6 r1_vec)
      (View.ld x3 r1_vec) (View.ld x4 r1_vec) (View.ld x7 r1_mat))
    (k1_pay3 (View.ld x8 r1_vec))⟩]

theorem cover1_9 (p0 : Vec F S5000x32 .f32) (y : S5000x32.Idx) :
    ∃ pc ∈ ([⟨r1_big, p0⟩] : List (View.Piece (Elt F) S5000x32 .f32)), y ∈ pc.1.set :=
  View.cover_of_tiled [⟨r1_big, p0⟩] S5000x32.size (by rfl) y

set_option maxHeartbeats 1000000 in

theorem sound_kernel1 (c : Dev nD) (E : Set ℕ) (i : grid1.Coords) (arg0 : Memref sig .tc .vmem S5000x32 .f32) (harg0 : arg0.IsWhole) (arg1 : Memref sig .tc .vmem S32x32 .f32) (harg1 : arg1.IsWhole) (arg2 : Memref sig .tc .vmem S32 .f32) (harg2 : arg2.IsWhole) (arg3 : Memref sig .tc .vmem S32 .f32) (harg3 : arg3.IsWhole) (arg4 : Memref sig .tc .vmem S32 .f32) (harg4 : arg4.IsWhole) (arg5 : Memref sig .tc .vmem S32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S5000x32 .f32) (harg9 : arg9.IsWhole)
    (x0 : Vec F S5000x32 .f32) (x1 : Vec F S32x32 .f32) (x2 x3 x4 x5 x6 : Vec F S32 .f32) (x7 : Vec F S32x32 .f32) (x8 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ K ⟨⟩))
      ⊢ wp frame (wpE (defs₀ (F := F)) Variants.none c none) E (cc1__gin_mlp_kernel i arg0 harg0 arg1 harg1 arg2 harg2 arg3 harg3 arg4 harg4 arg5 harg5 arg6 harg6 arg7 harg7 arg8 harg8 arg9 harg9) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem after1_in (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t ∧ (dat1 V c).after 5 t = iblk1 V c 5 t ∧ (dat1 V c).after 6 t = iblk1 V c 6 t ∧ (dat1 V c).after 7 t = iblk1 V c 7 t ∧ (dat1 V c).after 8 t = iblk1 V c 8 t := by
  and_intros <;> rfl
theorem before1_in (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) ∧ (∀ d, (dat1 V c).before 8 t d = iblk1 V c 8 t) := by
  and_intros <;> intro d <;>
  exact ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_in V c t, after1_in V c t]
  rw [show (dat1 V c).Φ t.succ = (dat1 V c).Φ t.castSucc from rfl,
    show (dat1 V c).owesAt () t.succ = (dat1 V c).owesAt () t.castSucc from rfl,
    after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Mlp2.lean ====
import proofs.«416321_j46445776339725_1_alg».proof.Proof.Gen.KernelIdeal.Launch
import proofs.«416321_j46445776339725_1_alg».proof.Proof.Gen.KernelIdeal.Skeleton
import proofs.«416321_j46445776339725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_big : Rect S5000x32 := Rect.unit (s := S5000x32) ![0, 0] S5000x32.size inb_S5000x32_S5000x32_0_0
abbrev r2_mat : Rect S32x32 := Rect.unit (s := S32x32) ![0, 0] S32x32.size inb_S32x32_S32x32_0_0
abbrev r2_vec : Rect S32 := Rect.unit (s := S32) ![0] S32.size inb_S32_S32_0

def out2_9 (x0 : Vec F S5000x32 .f32) (x1 : Vec F S32x32 .f32) (x2 x3 x4 x5 x6 : Vec F S32 .f32) (x7 : Vec F S32x32 .f32) (x8 : Vec F S32 .f32) : Vec F S5000x32 .f32 :=
  View.canon [⟨r2_big, k2_pay1
    (k2_pay2 (View.ld x0 r2_big) (View.ld x1 r2_mat) (View.ld x2 r2_vec) (View.ld x5 r2_vec) (View.ld x6 r2_vec)
      (View.ld x3 r2_vec) (View.ld x4 r2_vec) (View.ld x7 r2_mat))
    (k2_pay3 (View.ld x8 r2_vec))⟩]

theorem cover2_9 (p0 : Vec F S5000x32 .f32) (y : S5000x32.Idx) :
    ∃ pc ∈ ([⟨r2_big, p0⟩] : List (View.Piece (Elt F) S5000x32 .f32)), y ∈ pc.1.set :=
  View.cover_of_tiled [⟨r2_big, p0⟩] S5000x32.size (by rfl) y

set_option maxHeartbeats 1000000 in

theorem sound_kernel2 (c : Dev nD) (E : Set ℕ) (i : grid2.Coords) (arg0 : Memref sig .tc .vmem S5000x32 .f32) (harg0 : arg0.IsWhole) (arg1 : Memref sig .tc .vmem S32x32 .f32) (harg1 : arg1.IsWhole) (arg2 : Memref sig .tc .vmem S32 .f32) (harg2 : arg2.IsWhole) (arg3 : Memref sig .tc .vmem S32 .f32) (harg3 : arg3.IsWhole) (arg4 : Memref sig .tc .vmem S32 .f32) (harg4 : arg4.IsWhole) (arg5 : Memref sig .tc .vmem S32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S5000x32 .f32) (harg9 : arg9.IsWhole)
    (x0 : Vec F S5000x32 .f32) (x1 : Vec F S32x32 .f32) (x2 x3 x4 x5 x6 : Vec F S32 .f32) (x7 : Vec F S32x32 .f32) (x8 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ K ⟨⟩))
      ⊢ wp frame (wpE (defs₀ (F := F)) Variants.none c none) E (cc2__gin_mlp_kernel i arg0 harg0 arg1 harg1 arg2 harg2 arg3 harg3 arg4 harg4 arg5 harg5 arg6 harg6 arg7 harg7 arg8 harg8 arg9 harg9) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem after2_in (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t ∧ (dat2 V c).after 7 t = iblk2 V c 7 t ∧ (dat2 V c).after 8 t = iblk2 V c 8 t := by
  and_intros <;> rfl
theorem before2_in (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) ∧ (∀ d, (dat2 V c).before 7 t d = iblk2 V c 7 t) ∧ (∀ d, (dat2 V c).before 8 t d = iblk2 V c 8 t) := by
  and_intros <;> intro d <;>
  exact ((dat2 V c).before_in_eq_fetched _ rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_in V c t, after2_in V c t]
  rw [show (dat2 V c).Φ t.succ = (dat2 V c).Φ t.castSucc from rfl,
    show (dat2 V c).owesAt () t.succ = (dat2 V c).owesAt () t.castSucc from rfl,
    after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Pool3.lean ====
import proofs.«416321_j46445776339725_1_alg».proof.Proof.Gen.KernelIdeal.Launch
import proofs.«416321_j46445776339725_1_alg».proof.Proof.Gen.KernelIdeal.Skeleton
import proofs.«416321_j46445776339725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S2048x96 .f32
  | 0, h => k3_pay2 (iblk3 V c 0 ⟨0, h⟩) (iblk3 V c 1 ⟨0, h⟩) k3_pay1
  | n + 1, h => k3_pay2 (iblk3 V c 0 ⟨n + 1, h⟩) (iblk3 V c 1 ⟨n + 1, h⟩) (acc3 c n (Nat.lt_of_succ_lt h))

def Φ3 (c : Dev nD) (t : Fin (cfg3.N + 1)) : sProp 𝕄 :=
  iprop((∃ r, prngReg c r) ∗ Pipeline.scopedRestBut (Ix := Unit) (Name := ℕ) (U := UR sig nD τ) (Lvl := ℕ) (Val := Elt F) spec3 c [cc3_scratch0]
    ∗ (if h : t.val = 0 then iprop(∃ f : Buf (Elt F) ((c : Thread nD τ).loc cc3_scratch0), ((c : Thread nD τ).loc cc3_scratch0) ↦{fullShare} f)
       else iprop(((c : Thread nD τ).loc cc3_scratch0) ↦{fullShare} (acc3 V c (t.val - 1) (by have := t.isLt; omega)))))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Φ3 V c t
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = acc3 V c t.val t.isLt := by dsimp only [dat3]

abbrev cond3 (i : grid3.Coords) : Prop :=
  (Scalar.cmpi .ne (Scalar.extui (Scalar.cmpi .eq (BitVec.ofNat 32 (i 0).val) 0#32)) 0#32 : BitVec 1) = 1#1

theorem hcond3 : ∀ t : Fin cfg3.N, cond3 (grid3.coords t) ↔ t.val = 0 :=
  (by decide +kernel : ∀ t : Fin grid3.N, cond3 (grid3.coords t) ↔ t.val = 0)

abbrev r3_0 : Rect S2048x96 := Rect.unit (s := S2048x96) ![0, 0] S2048x96.size inb_S2048x96_S2048x96_0_0

theorem hz3 : (![0, 0] : Fin S2048x96.rank → Nat) = fun _ => 0 := funext fun a => by fin_cases a <;> rfl

theorem cover3 (p : Vec F S2048x96 .f32) (L : List (View.Piece (Elt F) S2048x96 .f32)) (y : S2048x96.Idx) :
    ∃ pc ∈ ((⟨r3_0, p⟩ : View.Piece (Elt F) S2048x96 .f32) :: L), y ∈ pc.1.set := by
  obtain ⟨pc, hpc, hy⟩ := View.cover_of_tiled [(⟨r3_0, p⟩ : View.Piece (Elt F) S2048x96 .f32)] S2048x96.size (by rfl) y
  rw [List.mem_singleton] at hpc
  subst hpc
  exact ⟨_, List.mem_cons_self, hy⟩

set_option maxHeartbeats 1000000 in

theorem sound_kernel3_first (c : Dev nD) (E : Set ℕ) (i : grid3.Coords) (hc : cond3 i)
    (arg1 : Memref sig .tc .vmem S4000x96 .f32) (harg1 : arg1.IsWhole) (arg2 : Memref sig .tc .vmem S4000x1 .i32) (harg2 : arg2.IsWhole)
    (arg3 : Memref sig .tc .vmem S2048x96 .f32) (harg3 : arg3.IsWhole) (arg4 : Memref sig .tc .vmem S2048x96 .f32) (harg4 : arg4.IsWhole)
    (x0 : Vec F S4000x96 .f32) (x1 : Vec F S4000x1 .i32) (K : PUnit → sProp 𝕄) :
    iprop(owns (c : Thread nD τ) arg1 fullShare x0 ∗ owns (c : Thread nD τ) arg2 fullShare x1
        ∗ (∃ d, owns (c : Thread nD τ) arg3 fullShare d) ∗ (∃ s, owns (c : Thread nD τ) arg4 fullShare s)
        ∗ (iprop(owns (c : Thread nD τ) arg1 fullShare x0 ∗ owns (c : Thread nD τ) arg2 fullShare x1
            ∗ owns (c : Thread nD τ) arg3 fullShare (k3_pay2 x0 x1 k3_pay1) ∗ owns (c : Thread nD τ) arg4 fullShare (k3_pay2 x0 x1 k3_pay1)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d3, %f3, -, H3⟩, ⟨%d4, %f4, -, H4⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (cover3 _ _), View.canon_unit_zero hz3]
    sl_unfold_words
    rw [View.readCov_eq_canon_ld _ _ _ (cover3 _ _), View.canon_cons_unit_zero (S := S2048x96) hz3,
      View.ld_unit_zero (S := S2048x96) hz3, View.readCov_unit_zero (S := S2048x96) _ hz3]
    simp only [View.readAt_eq_ld, View.ld_unit_zero (S := S4000x96) hz3, View.ld_unit_zero (S := S4000x1) hz3]
  · iexists _; isplitr
    swap; · iexact H4
    ipureintro
    sl_unfold_words
    rw [View.read_writes_eq_canon _ _ _ (cover3 _ _), View.canon_cons_unit_zero (S := S2048x96) hz3,
      View.readCov_unit_zero (S := S2048x96) _ hz3]
    simp only [View.readAt_eq_ld, View.ld_unit_zero (S := S4000x96) hz3, View.ld_unit_zero (S := S4000x1) hz3]

set_option maxHeartbeats 1000000 in

theorem sound_kernel3_later (c : Dev nD) (E : Set ℕ) (i : grid3.Coords) (hc : ¬cond3 i)
    (arg1 : Memref sig .tc .vmem S4000x96 .f32) (harg1 : arg1.IsWhole) (arg2 : Memref sig .tc .vmem S4000x1 .i32) (harg2 : arg2.IsWhole)
    (arg3 : Memref sig .tc .vmem S2048x96 .f32) (harg3 : arg3.IsWhole) (arg4 : Memref sig .tc .vmem S2048x96 .f32) (harg4 : arg4.IsWhole)
    (x0 : Vec F S4000x96 .f32) (x1 : Vec F S4000x1 .i32) (a : Vec F S2048x96 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a
        ∗ (iprop(owns (c : Thread nD τ) arg1 fullShare x0 ∗ owns (c : Thread nD τ) arg2 fullShare x1
            ∗ owns (c : Thread nD τ) arg3 fullShare (k3_pay2 x0 x1 a) ∗ owns (c : Thread nD τ) arg4 fullShare (k3_pay2 x0 x1 a)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (cover3 _ _), View.canon_unit_zero hz3]
    sl_unfold_words
    rw [View.readCov_unit_zero (S := S2048x96) _ hz3]
    simp only [View.readAt_eq_ld, View.ld_unit_zero (S := S4000x96) hz3, View.ld_unit_zero (S := S4000x1) hz3,
      View.ld_unit_zero (S := S2048x96) hz3]
  · iexists _; isplitr
    swap; · iexact H4
    ipureintro
    sl_unfold_words
    rw [View.read_writes_eq_canon _ _ _ (cover3 _ _), View.canon_unit_zero hz3]
    simp only [View.readAt_eq_ld, View.ld_unit_zero (S := S4000x96) hz3, View.ld_unit_zero (S := S4000x1) hz3,
      View.ld_unit_zero (S := S2048x96) hz3]

theorem acc3_first (c : Dev nD) (t : Fin cfg3.N) (h : t.val = 0) :
    acc3 V c t.val t.isLt = k3_pay2 (iblk3 V c 0 t) (iblk3 V c 1 t) k3_pay1 := by
  obtain ⟨tv, ht⟩ := t
  cases tv with
  | zero => rfl
  | succ n => exact absurd h (Nat.succ_ne_zero n)

theorem acc3_later (c : Dev nD) (t : Fin cfg3.N) (h : t.val ≠ 0) :
    acc3 V c t.val t.isLt
      = k3_pay2 (iblk3 V c 0 t) (iblk3 V c 1 t) (acc3 V c (t.val - 1) (Nat.lt_of_le_of_lt (Nat.sub_le _ _) t.isLt)) := by
  obtain ⟨tv, ht⟩ := t
  cases tv with
  | zero => exact absurd rfl h
  | succ n => rfl

abbrev scM3 : Memref sig .tc .vmem S2048x96 .f32 := Memref.whole cc3_scratch0

theorem Φ3_first (c : Dev nD) (t : Fin cfg3.N) (h : t.val = 0) :
    (Φ3 V c t.castSucc : sProp 𝕄)
      = iprop((∃ r, prngReg c r) ∗ Pipeline.scopedRestBut (Ix := Unit) (Name := ℕ) (U := UR sig nD τ) (Lvl := ℕ) (Val := Elt F) spec3 c [cc3_scratch0]
          ∗ (∃ s, owns (c : Thread nD τ) scM3 fullShare s)) := by
  unfold Φ3
  rw [dif_pos (show t.castSucc.val = 0 from h)]
  simp only [scM3, owns_whole]; try rfl

theorem Φ3_later (c : Dev nD) (t : Fin cfg3.N) (h : t.val ≠ 0) :
    (Φ3 V c t.castSucc : sProp 𝕄)
      = iprop((∃ r, prngReg c r) ∗ Pipeline.scopedRestBut (Ix := Unit) (Name := ℕ) (U := UR sig nD τ) (Lvl := ℕ) (Val := Elt F) spec3 c [cc3_scratch0]
          ∗ owns (c : Thread nD τ) scM3 fullShare (acc3 V c (t.val - 1) (Nat.lt_of_le_of_lt (Nat.sub_le _ _) t.isLt))) := by
  unfold Φ3
  rw [dif_neg (show ¬ t.castSucc.val = 0 from h)]
  simp only [scM3, owns_whole]; try rfl

theorem Φ3_succ (c : Dev nD) (t : Fin cfg3.N) :
    (Φ3 V c t.succ : sProp 𝕄)
      = iprop((∃ r, prngReg c r) ∗ Pipeline.scopedRestBut (Ix := Unit) (Name := ℕ) (U := UR sig nD τ) (Lvl := ℕ) (Val := Elt F) spec3 c [cc3_scratch0]
          ∗ owns (c : Thread nD τ) scM3 fullShare (acc3 V c t.val t.isLt)) := by
  unfold Φ3
  rw [dif_neg (show ¬ t.succ.val = 0 from Nat.succ_ne_zero _)]
  simp only [scM3, owns_whole]; try rfl

theorem after3_in (c : Dev nD) (t : Fin cfg3.N) :
    (dat3 V c).after 0 t = iblk3 V c 0 t ∧ (dat3 V c).after 1 t = iblk3 V c 1 t := by
  and_intros <;> rfl
theorem before3_in (c : Dev nD) (t : Fin cfg3.N) :
    (∀ d, (dat3 V c).before 0 t d = iblk3 V c 0 t) ∧ (∀ d, (dat3 V c).before 1 t d = iblk3 V c 1 t) := by
  and_intros <;> intro d <;>
  exact ((dat3 V c).before_in_eq_fetched _ rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_in V c t, after3_in V c t]
  rw [show (dat3 V c).owesAt () t.succ = (dat3 V c).owesAt () t.castSucc from rfl,
    after3_2,
    show (dat3 V c).Φ t.castSucc = Φ3 V c t.castSucc from rfl, show (dat3 V c).Φ t.succ = Φ3 V c t.succ from rfl, Φ3_succ]
  by_cases h : t.val = 0
  · rw [Φ3_first V c t h, acc3_first V c t h]
    iintro ⟨⟨Hr, Hrest, ⟨%s, Hs⟩⟩, Ho, ⟨%d0, H0⟩, ⟨%d1, H1⟩, ⟨%d2, H2⟩⟩
    iapply (sound_kernel3_first c Set.univ (grid3.coords t) ((hcond3 t).2 h) _ _ _ _ _ _ _ _ (iblk3 V c 0 t) (iblk3 V c 1 t) _)
    isplitl [H0]; · iexact H0
    isplitl [H1]; · iexact H1
    isplitl [H2]; · iexists _; iexact H2
    isplitl [Hs]; · iexists s; iexact Hs
    iintro ⟨H0, H1, H2, Hs⟩
    isplitl [Hr Hrest Hs]
    · isplitl [Hr]; · iexact Hr
      isplitl [Hrest]; · iexact Hrest
      iexact Hs
    isplitl [Ho]; · iexact Ho
    isplitl [H0]; · iexact H0
    isplitl [H1]; · iexact H1
    iexact H2
  · rw [Φ3_later V c t h, acc3_later V c t h]
    iintro ⟨⟨Hr, Hrest, Hs⟩, Ho, ⟨%d0, H0⟩, ⟨%d1, H1⟩, ⟨%d2, H2⟩⟩
    iapply (sound_kernel3_later c Set.univ (grid3.coords t) (fun hc => h ((hcond3 t).1 hc)) _ _ _ _ _ _ _ _ (iblk3 V c 0 t) (iblk3 V c 1 t) _ _)
    isplitl [H0]; · iexact H0
    isplitl [H1]; · iexact H1
    isplitl [H2]; · iexists _; iexact H2
    isplitl [Hs]; · iexact Hs
    iintro ⟨H0, H1, H2, Hs⟩
    isplitl [Hr Hrest Hs]
    · isplitl [Hr]; · iexact Hr
      isplitl [Hrest]; · iexact Hrest
      iexact Hs
    isplitl [Ho]; · iexact Ho
    isplitl [H0]; · iexact H0
    isplitl [H1]; · iexact H1
    iexact H2

theorem body_obligation3 (c : Dev nD) : BodyObligation (dat3 (F := F) V c) (defs₀ (F := F)) Variants.none () Set.univ := fun t => by
  rw [bigSep_W3, bigSep_W3]
  exact sound_body3 V c t

theorem Φ3_in (c : Dev nD) :
    iprop((∃ r, prngReg c r) ∗ Pipeline.scopedRest (Ix := Unit) (Name := ℕ) (U := UR sig nD τ) (Lvl := ℕ) (Val := Elt F) spec3 c)
      ⊢ (Φ3 V c 0 : sProp 𝕄) := by
  rw [scopedRest3_split]
  unfold Φ3
  rw [dif_pos (show (0 : Fin (cfg3.N + 1)).val = 0 from rfl)]
  iintro ⟨Hr, Hs, Hrest⟩
  isplitl [Hr]; · iexact Hr
  isplitl [Hrest]; · iexact Hrest
  iexact Hs

theorem Φ3_out (c : Dev nD) :
    (Φ3 V c (Fin.last cfg3.N) : sProp 𝕄)
      ⊢ iprop((∃ r, prngReg c r) ∗ Pipeline.scopedRest (Ix := Unit) (Name := ℕ) (U := UR sig nD τ) (Lvl := ℕ) (Val := Elt F) spec3 c) := by
  rw [scopedRest3_split]
  unfold Φ3
  rw [dif_neg (show ¬ (Fin.last cfg3.N).val = 0 from fun h => by
    have h25 : grid3.N = 25 := N_3
    rw [Fin.val_last] at h
    change grid3.N = 0 at h
    omega)]
  iintro ⟨Hr, Hrest, Hs⟩
  isplitl [Hr]; · iexact Hr
  isplitl [Hs]; · iexists _; iexact Hs
  iexact Hrest

end Cert.KernelIdeal.Hand

end
-- ==== Proof.KI.Final4.lean ====
import proofs.«416321_j46445776339725_1_alg».proof.Proof.Gen.KernelIdeal.Launch
import proofs.«416321_j46445776339725_1_alg».proof.Proof.Gen.KernelIdeal.Skeleton
import proofs.«416321_j46445776339725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S512x96 := Rect.unit (s := S512x96) ![0, 0] S512x96.size inb_S512x96_S512x96_0_0
abbrev r4_1 : Rect S96x96 := Rect.unit (s := S96x96) ![0, 0] S96x96.size inb_S96x96_S96x96_0_0
abbrev r4_2 : Rect S96 := Rect.unit (s := S96) ![0] S96.size inb_S96_S96_0
abbrev r4_3 : Rect S10x96 := Rect.unit (s := S10x96) ![0, 0] S10x96.size inb_S10x96_S10x96_0_0
abbrev r4_4 : Rect S10 := Rect.unit (s := S10) ![0] S10.size inb_S10_S10_0
abbrev r4_5 : Rect S512x10 := Rect.unit (s := S512x10) ![0, 0] S512x10.size inb_S512x10_S512x10_0_0

def out4_5 (x0 : Vec F S512x96 .f32) (x1 : Vec F S96x96 .f32) (x2 : Vec F S96 .f32) (x3 : Vec F S10x96 .f32) (x4 : Vec F S10 .f32) : Vec F S512x10 .f32 :=
  View.canon [⟨r4_5, k4_pay1 (View.ld x0 r4_0) (View.ld x1 r4_1) (View.ld x2 r4_2) (View.ld x3 r4_3) (View.ld x4 r4_4)⟩]

theorem cover4_5 (p0 : Vec F S512x10 .f32) (y : S512x10.Idx) :
    ∃ pc ∈ ([⟨r4_5, p0⟩] : List (View.Piece (Elt F) S512x10 .f32)), y ∈ pc.1.set :=
  View.cover_of_tiled [⟨r4_5, p0⟩] S512x10.size (by rfl) y

set_option maxHeartbeats 1000000 in

theorem sound_kernel4 (c : Dev nD) (E : Set ℕ) (i : grid4.Coords)
    (arg1 : Memref sig .tc .vmem S512x96 .f32) (harg1 : arg1.IsWhole) (arg2 : Memref sig .tc .vmem S96x96 .f32) (harg2 : arg2.IsWhole)
    (arg3 : Memref sig .tc .vmem S96 .f32) (harg3 : arg3.IsWhole) (arg4 : Memref sig .tc .vmem S10x96 .f32) (harg4 : arg4.IsWhole)
    (arg5 : Memref sig .tc .vmem S10 .f32) (harg5 : arg5.IsWhole) (arg6 : Memref sig .tc .vmem S512x10 .f32) (harg6 : arg6.IsWhole)
    (x0 : Vec F S512x96 .f32) (x1 : Vec F S96x96 .f32) (x2 : Vec F S96 .f32) (x3 : Vec F S10x96 .f32) (x4 : Vec F S10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__final_mlp_kernel i arg1 harg1 arg2 harg2 arg3 harg3 arg4 harg4 arg5 harg5 arg6 harg6) K := by
  simp only [cc4__final_mlp_kernel_eq_skeleton]; unfold cc4__final_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem after4_in (c : Dev nD) (t : Fin cfg4.N) :
    (dat4 V c).after 0 t = iblk4 V c 0 t ∧ (dat4 V c).after 1 t = iblk4 V c 1 t ∧ (dat4 V c).after 2 t = iblk4 V c 2 t ∧ (dat4 V c).after 3 t = iblk4 V c 3 t ∧ (dat4 V c).after 4 t = iblk4 V c 4 t := by
  and_intros <;> rfl
theorem before4_in (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) ∧ (∀ d, (dat4 V c).before 4 t d = iblk4 V c 4 t) := by
  and_intros <;> intro d <;>
  exact ((dat4 V c).before_in_eq_fetched _ rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_in V c t, after4_in V c t]
  rw [show (dat4 V c).Φ t.succ = (dat4 V c).Φ t.castSucc from rfl,
    show (dat4 V c).owesAt () t.succ = (dat4 V c).owesAt () t.castSucc from rfl,
    after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«416321_j46445776339725_1_alg».proof.Proof.KI.Mlp0
import proofs.«416321_j46445776339725_1_alg».proof.Proof.KI.Mlp1
import proofs.«416321_j46445776339725_1_alg».proof.Proof.KI.Mlp2
import proofs.«416321_j46445776339725_1_alg».proof.Proof.KI.Pool3
import proofs.«416321_j46445776339725_1_alg».proof.Proof.KI.Final4
import proofs.«416321_j46445776339725_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb

abbrev V9 : (c : Dev nD) → (b : Ref sig .tc) → Buf (Elt F) ((c : Thread nD τ).loc b) := fun c b => W9 m ρ c b

theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

theorem withArrays_keep {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb
    exact (Pipeline.withArrays_arr win hinj c V A w).trans (h w rfl)
  · exact Pipeline.withArrays_of_ne win c V A b fun w e => hb ⟨w, e⟩

theorem W2_keep (c : Dev nD) (b : Ref sig .tc) (h : ∀ w, Pipeline.arrRef spec0 w = b → (cfg0.win w).isOut = false) :
    W2 m ρ c (Proc.devRef .tc b) = W1 m ρ c (Proc.devRef .tc b) := by
  unfold W2
  exact withArrays_keep spec0 launch0.win.arr_inj c _ _ b fun w e =>
    ((dat0 (V1 m ρ) c).arrAt_in w (h w e) _).trans (A_eq0 (V1 m ρ) c w)
theorem W4_keep (c : Dev nD) (b : Ref sig .tc) (h : ∀ w, Pipeline.arrRef spec1 w = b → (cfg1.win w).isOut = false) :
    W4 m ρ c (Proc.devRef .tc b) = W3 m ρ c (Proc.devRef .tc b) := by
  unfold W4
  exact withArrays_keep spec1 launch1.win.arr_inj c _ _ b fun w e =>
    ((dat1 (V3 m ρ) c).arrAt_in w (h w e) _).trans (A_eq1 (V3 m ρ) c w)
theorem W6_keep (c : Dev nD) (b : Ref sig .tc) (h : ∀ w, Pipeline.arrRef spec2 w = b → (cfg2.win w).isOut = false) :
    W6 m ρ c (Proc.devRef .tc b) = W5 m ρ c (Proc.devRef .tc b) := by
  unfold W6
  exact withArrays_keep spec2 launch2.win.arr_inj c _ _ b fun w e =>
    ((dat2 (V5 m ρ) c).arrAt_in w (h w e) _).trans (A_eq2 (V5 m ρ) c w)
theorem W8_keep (c : Dev nD) (b : Ref sig .tc) (h : ∀ w, Pipeline.arrRef spec3 w = b → (cfg3.win w).isOut = false) :
    W8 m ρ c (Proc.devRef .tc b) = W7 m ρ c (Proc.devRef .tc b) := by
  unfold W8
  exact withArrays_keep spec3 launch3.win.arr_inj c _ _ b fun w e =>
    ((dat3 (V7 m ρ) c).arrAt_in w (h w e) _).trans (A_eq3 (V7 m ρ) c w)
theorem W9_keep (c : Dev nD) (b : Ref sig .tc) (h : ∀ w, Pipeline.arrRef spec4 w = b → (cfg4.win w).isOut = false) :
    W9 m ρ c (Proc.devRef .tc b) = W8 m ρ c (Proc.devRef .tc b) := by
  unfold W9
  exact withArrays_keep spec4 launch4.win.arr_inj c _ _ b fun w e =>
    ((dat4 (V8 m ρ) c).arrAt_in w (h w e) _).trans (A_eq4 (V8 m ρ) c w)

/-- `keepJ b`: no host stretch and no region before boundary `J` writes the buffer `b`. -/
abbrev keep1 (b : Ref sig .tc) : Prop := b ∉ hostOps0_W
abbrev keep2 (b : Ref sig .tc) : Prop := keep1 b ∧ ∀ w, Pipeline.arrRef spec0 w = b → (cfg0.win w).isOut = false
abbrev keep3 (b : Ref sig .tc) : Prop := keep2 b ∧ b ∉ hostOps1_W
abbrev keep4 (b : Ref sig .tc) : Prop := keep3 b ∧ ∀ w, Pipeline.arrRef spec1 w = b → (cfg1.win w).isOut = false
abbrev keep5 (b : Ref sig .tc) : Prop := keep4 b ∧ b ∉ hostOps2_W
abbrev keep6 (b : Ref sig .tc) : Prop := keep5 b ∧ ∀ w, Pipeline.arrRef spec2 w = b → (cfg2.win w).isOut = false
abbrev keep7 (b : Ref sig .tc) : Prop := keep6 b ∧ b ∉ hostOps3_W
abbrev keep8 (b : Ref sig .tc) : Prop := keep7 b ∧ ∀ w, Pipeline.arrRef spec3 w = b → (cfg3.win w).isOut = false
abbrev keep9 (b : Ref sig .tc) : Prop := keep8 b ∧ ∀ w, Pipeline.arrRef spec4 w = b → (cfg4.win w).isOut = false

section
variable (c : Dev nD) (b : Ref sig .tc)
/-- A buffer nothing has written holds its launch contents, boundary by boundary. -/
theorem V1_keep (h : keep1 b) : V1 m ρ c b = m ((c : Thread nD τ).loc b) :=
  StableHlo.after_of_writes_sub (r := b) hostOps0 (W0 m ρ c) hostOps0_writes h
theorem V2_keep (h : keep2 b) : V2 m ρ c b = m ((c : Thread nD τ).loc b) :=
  (W2_keep m ρ c b h.2).trans (V1_keep m ρ c b h.1)
theorem V3_keep (h : keep3 b) : V3 m ρ c b = m ((c : Thread nD τ).loc b) :=
  (StableHlo.after_of_writes_sub (r := b) hostOps1 (W2 m ρ c) hostOps1_writes h.2).trans (V2_keep m ρ c b h.1)
theorem V4_keep (h : keep4 b) : V4 m ρ c b = m ((c : Thread nD τ).loc b) :=
  (W4_keep m ρ c b h.2).trans (V3_keep m ρ c b h.1)
theorem V5_keep (h : keep5 b) : V5 m ρ c b = m ((c : Thread nD τ).loc b) :=
  (StableHlo.after_of_writes_sub (r := b) hostOps2 (W4 m ρ c) hostOps2_writes h.2).trans (V4_keep m ρ c b h.1)
theorem V6_keep (h : keep6 b) : V6 m ρ c b = m ((c : Thread nD τ).loc b) :=
  (W6_keep m ρ c b h.2).trans (V5_keep m ρ c b h.1)
theorem V7_keep (h : keep7 b) : V7 m ρ c b = m ((c : Thread nD τ).loc b) :=
  (StableHlo.after_of_writes_sub (r := b) hostOps3 (W6 m ρ c) hostOps3_writes h.2).trans (V6_keep m ρ c b h.1)
theorem V8_keep (h : keep8 b) : V8 m ρ c b = m ((c : Thread nD τ).loc b) :=
  (W8_keep m ρ c b h.2).trans (V7_keep m ρ c b h.1)
theorem V9_keep (h : keep9 b) : V9 m ρ c b = m ((c : Thread nD τ).loc b) :=
  (W9_keep m ρ c b h.2).trans (V8_keep m ρ c b h.1)
end

theorem W9_out (c : Dev nD) : W9 m ρ c (Proc.devRef .tc main_v43) = (dat4 (V8 m ρ) c).arrAt 5 cfg4.N :=
  W9_arr m ρ c 5

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Φ3 (V7 m ρ) c 0 from rfl]
    have h := Φ3_in (V7 m ρ) c
    iintro ⟨Hp, -, Hr⟩
    iapply h
    isplitl [Hp]; · iexact Hp
    iexact Hr
  hout c := by
    rw [Pipeline.ownSems0_none, show (pdats m ρ 3 c).Φ (Fin.last _) = Φ3 (V7 m ρ) c (Fin.last cfg3.N) from rfl]
    have h := Φ3_out (V7 m ρ) c
    iintro H
    ihave H' := h $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ) ]

theorem main_run (c : Dev nD) : main (F := F) c = Pipeline.Seg.run (segs m ρ) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31]

theorem run_args : θ_run defs (onTc (τ := τ) (main (F := F))) ⟨m, fun _ => 0, ρ⟩ (fun r => ∀ c : Dev nD,
      r.2.mem ((c.tc : Thread nD τ).loc main_v43) = W9 m ρ c (Proc.devRef .tc main_v43)
      ∧ ∀ b ∈ args, r.2.mem ((c.tc : Thread nD τ).loc b) = m ((c.tc : Thread nD τ).loc b)) :=
  have hk : ∀ b ∈ args, ¬ (Proc.devRef .tc b : DevRef τ sig).isScoped ∧ keep9 b := by decide +kernel
  (θ_run _ _ _).mono (fun r h c =>
    ⟨h c _ (mem_uc main_v43 (by decide)),
     fun b hb => (h c _ (mem_uc b (hk b hb).1)).trans (V9_keep m ρ c b (hk b hb).2)⟩) (run m ρ)

end Cert.KernelIdeal.Hand

end
-- ==== Proof.Ref.Tab.lean ====
import proofs.«416321_j46445776339725_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg2 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg2 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_c (constantI S_ 32 0#32),
    StableHlo.unary main_c main_v4 (broadcastInDim S3200000 ![] bcast_S_S3200000 : (⟨S_, .i32⟩ : BufTy).Contents (Elt F) → (⟨S3200000, .i32⟩ : BufTy).Contents (Elt F)),
    StableHlo.binary main_v1 main_v4 main_v5 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v6 (broadcastInDim S3200000 ![] bcast_S_S3200000 : (⟨S_, .i32⟩ : BufTy).Contents (Elt F) → (⟨S3200000, .i32⟩ : BufTy).Contents (Elt F)),
    StableHlo.binary main_v1 main_v6 main_v7 (addi : (⟨S3200000, .i32⟩ : BufTy).Contents (Elt F) → (⟨S3200000, .i32⟩ : BufTy).Contents (Elt F) → (⟨S3200000, .i32⟩ : BufTy).Contents (Elt F)),
    StableHlo.ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v8 main_v9 (broadcastInDim S3200000x1 ![0] bcast_S3200000_S3200000x1_0 : (⟨S3200000, .i32⟩ : BufTy).Contents (Elt F) → (⟨S3200000x1, .i32⟩ : BufTy).Contents (Elt F)),
    StableHlo.binary main_arg0 main_v9 main_v10 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst (constant S_ .f32 0x00000000#32),
    StableHlo.unary main_cst main_v11 (broadcastInDim S100000x32 ![] bcast_S_S100000x32 : (⟨S_, .f32⟩ : BufTy).Contents (Elt F) → (⟨S100000x32, .f32⟩ : BufTy).Contents (Elt F)),
    StableHlo.unary main_v3 main_v12 (broadcastInDim S3200000x1 ![0] bcast_S3200000_S3200000x1_0 : (⟨S3200000, .i32⟩ : BufTy).Contents (Elt F) → (⟨S3200000x1, .i32⟩ : BufTy).Contents (Elt F)),
    StableHlo.ternary main_v11 main_v12 main_v10 main_v13 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.binary main_arg0 main_v13 main_v14 (addf : (⟨S100000x32, .f32⟩ : BufTy).Contents (Elt F) → (⟨S100000x32, .f32⟩ : BufTy).Contents (Elt F) → (⟨S100000x32, .f32⟩ : BufTy).Contents (Elt F)),
    StableHlo.unary main_arg4 main_v15 ((transpose S32x32 [1, 0] · transposes_S32x32_S32x32_1_0) : (⟨S32x32, .f32⟩ : BufTy).Contents (Elt F) → (⟨S32x32, .f32⟩ : BufTy).Contents (Elt F)),
    StableHlo.binary main_v14 main_v15 main_v16 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg5 main_v17 (broadcastInDim S1x32 ![1] bcast_S32_S1x32_1 : (⟨S32, .f32⟩ : BufTy).Contents (Elt F) → (⟨S1x32, .f32⟩ : BufTy).Contents (Elt F)),
    StableHlo.unary main_v17 main_v18 (broadcastInDim S100000x32 ![0, 1] bcast_S1x32_S100000x32_0_1 : (⟨S1x32, .f32⟩ : BufTy).Contents (Elt F) → (⟨S100000x32, .f32⟩ : BufTy).Contents (Elt F)),
    StableHlo.binary main_v16 main_v18 main_v19 (addf : (⟨S100000x32, .f32⟩ : BufTy).Contents (Elt F) → (⟨S100000x32, .f32⟩ : BufTy).Contents (Elt F) → (⟨S100000x32, .f32⟩ : BufTy).Contents (Elt F)),
    StableHlo.unary main_arg8 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S100000x32 ![0, 1] bcast_S1x32_S100000x32_0_1 : (⟨S1x32, .f32⟩ : BufTy).Contents (Elt F) → (⟨S100000x32, .f32⟩ : BufTy).Contents (Elt F)),
    StableHlo.binary main_v19 main_v21 main_v22 (subf : (⟨S100000x32, .f32⟩ : BufTy).Contents (Elt F) → (⟨S100000x32, .f32⟩ : BufTy).Contents (Elt F) → (⟨S100000x32, .f32⟩ : BufTy).Contents (Elt F)),
    StableHlo.nullary main_cst_1 (constant S_ .f32 0x3727C5AC#32),
    StableHlo.unary main_cst_1 main_v23 (broadcastInDim S32 ![] bcast_S_S32 : (⟨S_, .f32⟩ : BufTy).Contents (Elt F) → (⟨S32, .f32⟩ : BufTy).Contents (Elt F)),
    StableHlo.binary main_arg9 main_v23 main_v24 (addf : (⟨S32, .f32⟩ : BufTy).Contents (Elt F) → (⟨S32, .f32⟩ : BufTy).Contents (Elt F) → (⟨S32, .f32⟩ : BufTy).Contents (Elt F)),
    StableHlo.unary main_v24 main_v25 (Host.rsqrt : (⟨S32, .f32⟩ : BufTy).Contents (Elt F) → (⟨S32, .f32⟩ : BufTy).Contents (Elt F)),
    StableHlo.unary main_v25 main_v26 (broadcastInDim S1x32 ![1] bcast_S32_S1x32_1 : (⟨S32, .f32⟩ : BufTy).Contents (Elt F) → (⟨S1x32, .f32⟩ : BufTy).Contents (Elt F)),
    StableHlo.unary main_v26 main_v27 (broadcastInDim S100000x32 ![0, 1] bcast_S1x32_S100000x32_0_1 : (⟨S1x32, .f32⟩ : BufTy).Contents (Elt F) → (⟨S100000x32, .f32⟩ : BufTy).Contents (Elt F)),
    StableHlo.binary main_v22 main_v27 main_v28 (mulf : (⟨S100000x32, .f32⟩ : BufTy).Contents (Elt F) → (⟨S100000x32, .f32⟩ : BufTy).Contents (Elt F) → (⟨S100000x32, .f32⟩ : BufTy).Contents (Elt F)),
    StableHlo.unary main_arg6 main_v29 (broadcastInDim S1x32 ![1] bcast_S32_S1x32_1 : (⟨S32, .f32⟩ : BufTy).Contents (Elt F) → (⟨S1x32, .f32⟩ : BufTy).Contents (Elt F)),
    StableHlo.unary main_v29 main_v30 (broadcastInDim S100000x32 ![0, 1] bcast_S1x32_S100000x32_0_1 : (⟨S1x32, .f32⟩ : BufTy).Contents (Elt F) → (⟨S100000x32, .f32⟩ : BufTy).Contents (Elt F)),
    StableHlo.binary main_v28 main_v30 main_v31 (mulf : (⟨S100000x32, .f32⟩ : BufTy).Contents (Elt F) → (⟨S100000x32, .f32⟩ : BufTy).Contents (Elt F) → (⟨S100000x32, .f32⟩ : BufTy).Contents (Elt F)),
    StableHlo.unary main_arg7 main_v32 (broadcastInDim S1x32 ![1] bcast_S32_S1x32_1 : (⟨S32, .f32⟩ : BufTy).Contents (Elt F) → (⟨S1x32, .f32⟩ : BufTy).Contents (Elt F)),
    StableHlo.unary main_v32 main_v33 (broadcastInDim S100000x32 ![0, 1] bcast_S1x32_S100000x32_0_1 : (⟨S1x32, .f32⟩ : BufTy).Contents (Elt F) → (⟨S100000x32, .f32⟩ : BufTy).Contents (Elt F)),
    StableHlo.binary main_v31 main_v33 main_v34 (addf : (⟨S100000x32, .f32⟩ : BufTy).Contents (Elt F) → (⟨S100000x32, .f32⟩ : BufTy).Contents (Elt F) → (⟨S100000x32, .f32⟩ : BufTy).Contents (Elt F)),
    StableHlo.nullary main_cst_2 (constant S_ .f32 0x3C23D70A#32),
    TRef.nullary main_call0.cst (constant S_ .f32 0x00000000#32),
    TRef.unary main_call0.cst main_call0.v0 (broadcastInDim S100000x32 ![] bcast_S_S100000x32),
    TRef.binary (.of main_v34 : TRef sig ⟨S100000x32, .f32⟩) main_call0.v0 main_call0.v1 (cmpf .oge),
    TRef.unary (.of main_cst_2 : TRef sig ⟨S_, .f32⟩) main_call0.v2 id,
    TRef.unary main_call0.v2 main_call0.v3 (broadcastInDim S100000x32 ![] bcast_S_S100000x32),
    TRef.binary main_call0.v3 (.of main_v34 : TRef sig ⟨S100000x32, .f32⟩) main_call0.v4 mulf,
    TRef.ternary main_call0.v1 (.of main_v34 : TRef sig ⟨S100000x32, .f32⟩) main_call0.v4 main_call0.call0.v0 select,
    StableHlo.unary main_arg10 main_v36 ((transpose S32x32 [1, 0] · transposes_S32x32_S32x32_1_0) : (⟨S32x32, .f32⟩ : BufTy).Contents (Elt F) → (⟨S32x32, .f32⟩ : BufTy).Contents (Elt F)),
    StableHlo.binary main_v35 main_v36 main_v37 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg11 main_v38 (broadcastInDim S1x32 ![1] bcast_S32_S1x32_1 : (⟨S32, .f32⟩ : BufTy).Contents (Elt F) → (⟨S1x32, .f32⟩ : BufTy).Contents (Elt F)),
    StableHlo.unary main_v38 main_v39 (broadcastInDim S100000x32 ![0, 1] bcast_S1x32_S100000x32_0_1 : (⟨S1x32, .f32⟩ : BufTy).Contents (Elt F) → (⟨S100000x32, .f32⟩ : BufTy).Contents (Elt F)),
    StableHlo.binary main_v37 main_v39 main_v40 (addf : (⟨S100000x32, .f32⟩ : BufTy).Contents (Elt F) → (⟨S100000x32, .f32⟩ : BufTy).Contents (Elt F) → (⟨S100000x32, .f32⟩ : BufTy).Contents (Elt F)),
    StableHlo.nullary main_cst_3 (constant S_ .f32 0x3C23D70A#32),
    TRef.nullary main_call1.cst (constant S_ .f32 0x00000000#32),
    TRef.unary main_call1.cst main_call1.v0 (broadcastInDim S100000x32 ![] bcast_S_S100000x32),
    TRef.binary (.of main_v40 : TRef sig ⟨S100000x32, .f32⟩) main_call1.v0 main_call1.v1 (cmpf .oge),
    TRef.unary (.of main_cst_3 : TRef sig ⟨S_, .f32⟩) main_call1.v2 id,
    TRef.unary main_call1.v2 main_call1.v3 (broadcastInDim S100000x32 ![] bcast_S_S100000x32),
    TRef.binary main_call1.v3 (.of main_v40 : TRef sig ⟨S100000x32, .f32⟩) main_call1.v4 mulf,
    TRef.ternary main_call1.v1 (.of main_v40 : TRef sig ⟨S100000x32, .f32⟩) main_call1.v4 main_call1.call0.v0 select,
    StableHlo.nullary main_c_4 (constantI S_ 32 0#32),
    StableHlo.unary main_c_4 main_v42 (broadcastInDim S3200000 ![] bcast_S_S3200000 : (⟨S_, .i32⟩ : BufTy).Contents (Elt F) → (⟨S3200000, .i32⟩ : BufTy).Contents (Elt F)),
    StableHlo.binary main_v1 main_v42 main_v43 (cmpi .slt : (⟨S3200000, .i32⟩ : BufTy).Contents (Elt F) → (⟨S3200000, .i32⟩ : BufTy).Contents (Elt F) → (⟨S3200000, .i1⟩ : BufTy).Contents (Elt F)),
    StableHlo.nullary main_c_5 (constantI S_ 32 100000#32),
    StableHlo.unary main_c_5 main_v44 (broadcastInDim S3200000 ![] bcast_S_S3200000 : (⟨S_, .i32⟩ : BufTy).Contents (Elt F) → (⟨S3200000, .i32⟩ : BufTy).Contents (Elt F)),
    StableHlo.binary main_v1 main_v44 main_v45 (addi : (⟨S3200000, .i32⟩ : BufTy).Contents (Elt F) → (⟨S3200000, .i32⟩ : BufTy).Contents (Elt F) → (⟨S3200000, .i32⟩ : BufTy).Contents (Elt F)),
    StableHlo.ternary main_v43 main_v45 main_v1 main_v46 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v46 main_v47 (broadcastInDim S3200000x1 ![0] bcast_S3200000_S3200000x1_0 : (⟨S3200000, .i32⟩ : BufTy).Contents (Elt F) → (⟨S3200000x1, .i32⟩ : BufTy).Contents (Elt F)),
    StableHlo.binary main_v41 main_v47 main_v48 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_6 (constant S_ .f32 0x00000000#32),
    StableHlo.unary main_cst_6 main_v49 (broadcastInDim S100000x32 ![] bcast_S_S100000x32 : (⟨S_, .f32⟩ : BufTy).Contents (Elt F) → (⟨S100000x32, .f32⟩ : BufTy).Contents (Elt F)),
    StableHlo.unary main_v3 main_v50 (broadcastInDim S3200000x1 ![0] bcast_S3200000_S3200000x1_0 : (⟨S3200000, .i32⟩ : BufTy).Contents (Elt F) → (⟨S3200000x1, .i32⟩ : BufTy).Contents (Elt F)) ]

abbrev ops0_W : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_cst_1, main_v23, main_v24, main_v25, main_v26, main_v27, main_v28, main_v29, main_v30, main_v31, main_v32, main_v33, main_v34, main_cst_2, main_call0_cst, main_call0_v0, main_call0_v1, main_call0_v2, main_call0_v3, main_call0_v4, main_v35, main_v36, main_v37, main_v38, main_v39, main_v40, main_cst_3, main_call1_cst, main_call1_v0, main_call1_v1, main_call1_v2, main_call1_v3, main_call1_v4, main_v41, main_c_4, main_v42, main_v43, main_c_5, main_v44, main_v45, main_v46, main_v47, main_v48, main_cst_6, main_v49, main_v50]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

set_option maxRecDepth 8192 in
theorem ops0_writes : (ops0 : List (HloOp τ sig (Elt F))).Forall fun op =>
    op.writes ⊆ (ops0_W.map (Proc.devRef (τ := τ) .tc)).toFinset := by
  simp only [List.Forall]
  and_intros <;> (simp only [nullary_writes, unary_writes, binary_writes, ternary_writes, reshape_writes, nary_writes, Finset.singleton_subset_iff, List.mem_toFinset]; exact List.mem_map_of_mem (by decide))

abbrev ops1 : List (HloOp τ sig (Elt F)) :=
  [ StableHlo.ternary main_v49 main_v50 main_v48 main_v51 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.binary main_v41 main_v51 main_v52 (addf : (⟨S100000x32, .f32⟩ : BufTy).Contents (Elt F) → (⟨S100000x32, .f32⟩ : BufTy).Contents (Elt F) → (⟨S100000x32, .f32⟩ : BufTy).Contents (Elt F)),
    StableHlo.unary main_arg12 main_v53 ((transpose S32x32 [1, 0] · transposes_S32x32_S32x32_1_0) : (⟨S32x32, .f32⟩ : BufTy).Contents (Elt F) → (⟨S32x32, .f32⟩ : BufTy).Contents (Elt F)),
    StableHlo.binary main_v52 main_v53 main_v54 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg13 main_v55 (broadcastInDim S1x32 ![1] bcast_S32_S1x32_1 : (⟨S32, .f32⟩ : BufTy).Contents (Elt F) → (⟨S1x32, .f32⟩ : BufTy).Contents (Elt F)),
    StableHlo.unary main_v55 main_v56 (broadcastInDim S100000x32 ![0, 1] bcast_S1x32_S100000x32_0_1 : (⟨S1x32, .f32⟩ : BufTy).Contents (Elt F) → (⟨S100000x32, .f32⟩ : BufTy).Contents (Elt F)),
    StableHlo.binary main_v54 main_v56 main_v57 (addf : (⟨S100000x32, .f32⟩ : BufTy).Contents (Elt F) → (⟨S100000x32, .f32⟩ : BufTy).Contents (Elt F) → (⟨S100000x32, .f32⟩ : BufTy).Contents (Elt F)),
    StableHlo.unary main_arg16 main_v58 (broadcastInDim S1x32 ![1] bcast_S32_S1x32_1 : (⟨S32, .f32⟩ : BufTy).Contents (Elt F) → (⟨S1x32, .f32⟩ : BufTy).Contents (Elt F)),
    StableHlo.unary main_v58 main_v59 (broadcastInDim S100000x32 ![0, 1] bcast_S1x32_S100000x32_0_1 : (⟨S1x32, .f32⟩ : BufTy).Contents (Elt F) → (⟨S100000x32, .f32⟩ : BufTy).Contents (Elt F)),
    StableHlo.binary main_v57 main_v59 main_v60 (subf : (⟨S100000x32, .f32⟩ : BufTy).Contents (Elt F) → (⟨S100000x32, .f32⟩ : BufTy).Contents (Elt F) → (⟨S100000x32, .f32⟩ : BufTy).Contents (Elt F)),
    StableHlo.nullary main_cst_7 (constant S_ .f32 0x3727C5AC#32),
    StableHlo.unary main_cst_7 main_v61 (broadcastInDim S32 ![] bcast_S_S32 : (⟨S_, .f32⟩ : BufTy).Contents (Elt F) → (⟨S32, .f32⟩ : BufTy).Contents (Elt F)),
    StableHlo.binary main_arg17 main_v61 main_v62 (addf : (⟨S32, .f32⟩ : BufTy).Contents (Elt F) → (⟨S32, .f32⟩ : BufTy).Contents (Elt F) → (⟨S32, .f32⟩ : BufTy).Contents (Elt F)),
    StableHlo.unary main_v62 main_v63 (Host.rsqrt : (⟨S32, .f32⟩ : BufTy).Contents (Elt F) → (⟨S32, .f32⟩ : BufTy).Contents (Elt F)),
    StableHlo.unary main_v63 main_v64 (broadcastInDim S1x32 ![1] bcast_S32_S1x32_1 : (⟨S32, .f32⟩ : BufTy).Contents (Elt F) → (⟨S1x32, .f32⟩ : BufTy).Contents (Elt F)),
    StableHlo.unary main_v64 main_v65 (broadcastInDim S100000x32 ![0, 1] bcast_S1x32_S100000x32_0_1 : (⟨S1x32, .f32⟩ : BufTy).Contents (Elt F) → (⟨S100000x32, .f32⟩ : BufTy).Contents (Elt F)),
    StableHlo.binary main_v60 main_v65 main_v66 (mulf : (⟨S100000x32, .f32⟩ : BufTy).Contents (Elt F) → (⟨S100000x32, .f32⟩ : BufTy).Contents (Elt F) → (⟨S100000x32, .f32⟩ : BufTy).Contents (Elt F)),
    StableHlo.unary main_arg14 main_v67 (broadcastInDim S1x32 ![1] bcast_S32_S1x32_1 : (⟨S32, .f32⟩ : BufTy).Contents (Elt F) → (⟨S1x32, .f32⟩ : BufTy).Contents (Elt F)),
    StableHlo.unary main_v67 main_v68 (broadcastInDim S100000x32 ![0, 1] bcast_S1x32_S100000x32_0_1 : (⟨S1x32, .f32⟩ : BufTy).Contents (Elt F) → (⟨S100000x32, .f32⟩ : BufTy).Contents (Elt F)),
    StableHlo.binary main_v66 main_v68 main_v69 (mulf : (⟨S100000x32, .f32⟩ : BufTy).Contents (Elt F) → (⟨S100000x32, .f32⟩ : BufTy).Contents (Elt F) → (⟨S100000x32, .f32⟩ : BufTy).Contents (Elt F)),
    StableHlo.unary main_arg15 main_v70 (broadcastInDim S1x32 ![1] bcast_S32_S1x32_1 : (⟨S32, .f32⟩ : BufTy).Contents (Elt F) → (⟨S1x32, .f32⟩ : BufTy).Contents (Elt F)),
    StableHlo.unary main_v70 main_v71 (broadcastInDim S100000x32 ![0, 1] bcast_S1x32_S100000x32_0_1 : (⟨S1x32, .f32⟩ : BufTy).Contents (Elt F) → (⟨S100000x32, .f32⟩ : BufTy).Contents (Elt F)),
    StableHlo.binary main_v69 main_v71 main_v72 (addf : (⟨S100000x32, .f32⟩ : BufTy).Contents (Elt F) → (⟨S100000x32, .f32⟩ : BufTy).Contents (Elt F) → (⟨S100000x32, .f32⟩ : BufTy).Contents (Elt F)),
    StableHlo.nullary main_cst_8 (constant S_ .f32 0x3C23D70A#32),
    TRef.nullary main_call2.cst (constant S_ .f32 0x00000000#32),
    TRef.unary main_call2.cst main_call2.v0 (broadcastInDim S100000x32 ![] bcast_S_S100000x32),
    TRef.binary (.of main_v72 : TRef sig ⟨S100000x32, .f32⟩) main_call2.v0 main_call2.v1 (cmpf .oge),
    TRef.unary (.of main_cst_8 : TRef sig ⟨S_, .f32⟩) main_call2.v2 id,
    TRef.unary main_call2.v2 main_call2.v3 (broadcastInDim S100000x32 ![] bcast_S_S100000x32),
    TRef.binary main_call2.v3 (.of main_v72 : TRef sig ⟨S100000x32, .f32⟩) main_call2.v4 mulf,
    TRef.ternary main_call2.v1 (.of main_v72 : TRef sig ⟨S100000x32, .f32⟩) main_call2.v4 main_call2.call0.v0 select,
    StableHlo.unary main_arg18 main_v74 ((transpose S32x32 [1, 0] · transposes_S32x32_S32x32_1_0) : (⟨S32x32, .f32⟩ : BufTy).Contents (Elt F) → (⟨S32x32, .f32⟩ : BufTy).Contents (Elt F)),
    StableHlo.binary main_v73 main_v74 main_v75 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg19 main_v76 (broadcastInDim S1x32 ![1] bcast_S32_S1x32_1 : (⟨S32, .f32⟩ : BufTy).Contents (Elt F) → (⟨S1x32, .f32⟩ : BufTy).Contents (Elt F)),
    StableHlo.unary main_v76 main_v77 (broadcastInDim S100000x32 ![0, 1] bcast_S1x32_S100000x32_0_1 : (⟨S1x32, .f32⟩ : BufTy).Contents (Elt F) → (⟨S100000x32, .f32⟩ : BufTy).Contents (Elt F)),
    StableHlo.binary main_v75 main_v77 main_v78 (addf : (⟨S100000x32, .f32⟩ : BufTy).Contents (Elt F) → (⟨S100000x32, .f32⟩ : BufTy).Contents (Elt F) → (⟨S100000x32, .f32⟩ : BufTy).Contents (Elt F)),
    StableHlo.nullary main_cst_9 (constant S_ .f32 0x3C23D70A#32),
    TRef.nullary main_call3.cst (constant S_ .f32 0x00000000#32),
    TRef.unary main_call3.cst main_call3.v0 (broadcastInDim S100000x32 ![] bcast_S_S100000x32),
    TRef.binary (.of main_v78 : TRef sig ⟨S100000x32, .f32⟩) main_call3.v0 main_call3.v1 (cmpf .oge),
    TRef.unary (.of main_cst_9 : TRef sig ⟨S_, .f32⟩) main_call3.v2 id,
    TRef.unary main_call3.v2 main_call3.v3 (broadcastInDim S100000x32 ![] bcast_S_S100000x32),
    TRef.binary main_call3.v3 (.of main_v78 : TRef sig ⟨S100000x32, .f32⟩) main_call3.v4 mulf,
    TRef.ternary main_call3.v1 (.of main_v78 : TRef sig ⟨S100000x32, .f32⟩) main_call3.v4 main_call3.call0.v0 select,
    StableHlo.nullary main_c_10 (constantI S_ 32 0#32),
    StableHlo.unary main_c_10 main_v80 (broadcastInDim S3200000 ![] bcast_S_S3200000 : (⟨S_, .i32⟩ : BufTy).Contents (Elt F) → (⟨S3200000, .i32⟩ : BufTy).Contents (Elt F)),
    StableHlo.binary main_v1 main_v80 main_v81 (cmpi .slt : (⟨S3200000, .i32⟩ : BufTy).Contents (Elt F) → (⟨S3200000, .i32⟩ : BufTy).Contents (Elt F) → (⟨S3200000, .i1⟩ : BufTy).Contents (Elt F)),
    StableHlo.nullary main_c_11 (constantI S_ 32 100000#32),
    StableHlo.unary main_c_11 main_v82 (broadcastInDim S3200000 ![] bcast_S_S3200000 : (⟨S_, .i32⟩ : BufTy).Contents (Elt F) → (⟨S3200000, .i32⟩ : BufTy).Contents (Elt F)),
    StableHlo.binary main_v1 main_v82 main_v83 (addi : (⟨S3200000, .i32⟩ : BufTy).Contents (Elt F) → (⟨S3200000, .i32⟩ : BufTy).Contents (Elt F) → (⟨S3200000, .i32⟩ : BufTy).Contents (Elt F)),
    StableHlo.ternary main_v81 main_v83 main_v1 main_v84 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v84 main_v85 (broadcastInDim S3200000x1 ![0] bcast_S3200000_S3200000x1_0 : (⟨S3200000, .i32⟩ : BufTy).Contents (Elt F) → (⟨S3200000x1, .i32⟩ : BufTy).Contents (Elt F)),
    StableHlo.binary main_v79 main_v85 main_v86 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_12 (constant S_ .f32 0x00000000#32),
    StableHlo.unary main_cst_12 main_v87 (broadcastInDim S100000x32 ![] bcast_S_S100000x32 : (⟨S_, .f32⟩ : BufTy).Contents (Elt F) → (⟨S100000x32, .f32⟩ : BufTy).Contents (Elt F)),
    StableHlo.unary main_v3 main_v88 (broadcastInDim S3200000x1 ![0] bcast_S3200000_S3200000x1_0 : (⟨S3200000, .i32⟩ : BufTy).Contents (Elt F) → (⟨S3200000x1, .i32⟩ : BufTy).Contents (Elt F)),
    StableHlo.ternary main_v87 main_v88 main_v86 main_v89 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.binary main_v79 main_v89 main_v90 (addf : (⟨S100000x32, .f32⟩ : BufTy).Contents (Elt F) → (⟨S100000x32, .f32⟩ : BufTy).Contents (Elt F) → (⟨S100000x32, .f32⟩ : BufTy).Contents (Elt F)),
    StableHlo.unary main_arg20 main_v91 ((transpose S32x32 [1, 0] · transposes_S32x32_S32x32_1_0) : (⟨S32x32, .f32⟩ : BufTy).Contents (Elt F) → (⟨S32x32, .f32⟩ : BufTy).Contents (Elt F)),
    StableHlo.binary main_v90 main_v91 main_v92 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg21 main_v93 (broadcastInDim S1x32 ![1] bcast_S32_S1x32_1 : (⟨S32, .f32⟩ : BufTy).Contents (Elt F) → (⟨S1x32, .f32⟩ : BufTy).Contents (Elt F)),
    StableHlo.unary main_v93 main_v94 (broadcastInDim S100000x32 ![0, 1] bcast_S1x32_S100000x32_0_1 : (⟨S1x32, .f32⟩ : BufTy).Contents (Elt F) → (⟨S100000x32, .f32⟩ : BufTy).Contents (Elt F)),
    StableHlo.binary main_v92 main_v94 main_v95 (addf : (⟨S100000x32, .f32⟩ : BufTy).Contents (Elt F) → (⟨S100000x32, .f32⟩ : BufTy).Contents (Elt F) → (⟨S100000x32, .f32⟩ : BufTy).Contents (Elt F)),
    StableHlo.unary main_arg24 main_v96 (broadcastInDim S1x32 ![1] bcast_S32_S1x32_1 : (⟨S32, .f32⟩ : BufTy).Contents (Elt F) → (⟨S1x32, .f32⟩ : BufTy).Contents (Elt F)),
    StableHlo.unary main_v96 main_v97 (broadcastInDim S100000x32 ![0, 1] bcast_S1x32_S100000x32_0_1 : (⟨S1x32, .f32⟩ : BufTy).Contents (Elt F) → (⟨S100000x32, .f32⟩ : BufTy).Contents (Elt F)),
    StableHlo.binary main_v95 main_v97 main_v98 (subf : (⟨S100000x32, .f32⟩ : BufTy).Contents (Elt F) → (⟨S100000x32, .f32⟩ : BufTy).Contents (Elt F) → (⟨S100000x32, .f32⟩ : BufTy).Contents (Elt F)),
    StableHlo.nullary main_cst_13 (constant S_ .f32 0x3727C5AC#32),
    StableHlo.unary main_cst_13 main_v99 (broadcastInDim S32 ![] bcast_S_S32 : (⟨S_, .f32⟩ : BufTy).Contents (Elt F) → (⟨S32, .f32⟩ : BufTy).Contents (Elt F)),
    StableHlo.binary main_arg25 main_v99 main_v100 (addf : (⟨S32, .f32⟩ : BufTy).Contents (Elt F) → (⟨S32, .f32⟩ : BufTy).Contents (Elt F) → (⟨S32, .f32⟩ : BufTy).Contents (Elt F)),
    StableHlo.unary main_v100 main_v101 (Host.rsqrt : (⟨S32, .f32⟩ : BufTy).Contents (Elt F) → (⟨S32, .f32⟩ : BufTy).Contents (Elt F)),
    StableHlo.unary main_v101 main_v102 (broadcastInDim S1x32 ![1] bcast_S32_S1x32_1 : (⟨S32, .f32⟩ : BufTy).Contents (Elt F) → (⟨S1x32, .f32⟩ : BufTy).Contents (Elt F)),
    StableHlo.unary main_v102 main_v103 (broadcastInDim S100000x32 ![0, 1] bcast_S1x32_S100000x32_0_1 : (⟨S1x32, .f32⟩ : BufTy).Contents (Elt F) → (⟨S100000x32, .f32⟩ : BufTy).Contents (Elt F)) ]

abbrev ops1_W : List (Ref sig .tc) :=
  [main_v51, main_v52, main_v53, main_v54, main_v55, main_v56, main_v57, main_v58, main_v59, main_v60, main_cst_7, main_v61, main_v62, main_v63, main_v64, main_v65, main_v66, main_v67, main_v68, main_v69, main_v70, main_v71, main_v72, main_cst_8, main_call2_cst, main_call2_v0, main_call2_v1, main_call2_v2, main_call2_v3, main_call2_v4, main_v73, main_v74, main_v75, main_v76, main_v77, main_v78, main_cst_9, main_call3_cst, main_call3_v0, main_call3_v1, main_call3_v2, main_call3_v3, main_call3_v4, main_v79, main_c_10, main_v80, main_v81, main_c_11, main_v82, main_v83, main_v84, main_v85, main_v86, main_cst_12, main_v87, main_v88, main_v89, main_v90, main_v91, main_v92, main_v93, main_v94, main_v95, main_v96, main_v97, main_v98, main_cst_13, main_v99, main_v100, main_v101, main_v102, main_v103]

set_option maxRecDepth 8192 in
theorem ops1_sub : (ops1 : List (HloOp τ sig (Elt F))).Forall fun op => op.bufs ⊆ tcRefs τ sig :=
  ⟨ternary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub ..⟩

set_option maxRecDepth 8192 in
theorem ops1_writes : (ops1 : List (HloOp τ sig (Elt F))).Forall fun op =>
    op.writes ⊆ (ops1_W.map (Proc.devRef (τ := τ) .tc)).toFinset := by
  simp only [List.Forall]
  and_intros <;> (simp only [nullary_writes, unary_writes, binary_writes, ternary_writes, reshape_writes, nary_writes, Finset.singleton_subset_iff, List.mem_toFinset]; exact List.mem_map_of_mem (by decide))

abbrev ops2 : List (HloOp τ sig (Elt F)) :=
  [ StableHlo.binary main_v98 main_v103 main_v104 (mulf : (⟨S100000x32, .f32⟩ : BufTy).Contents (Elt F) → (⟨S100000x32, .f32⟩ : BufTy).Contents (Elt F) → (⟨S100000x32, .f32⟩ : BufTy).Contents (Elt F)),
    StableHlo.unary main_arg22 main_v105 (broadcastInDim S1x32 ![1] bcast_S32_S1x32_1 : (⟨S32, .f32⟩ : BufTy).Contents (Elt F) → (⟨S1x32, .f32⟩ : BufTy).Contents (Elt F)),
    StableHlo.unary main_v105 main_v106 (broadcastInDim S100000x32 ![0, 1] bcast_S1x32_S100000x32_0_1 : (⟨S1x32, .f32⟩ : BufTy).Contents (Elt F) → (⟨S100000x32, .f32⟩ : BufTy).Contents (Elt F)),
    StableHlo.binary main_v104 main_v106 main_v107 (mulf : (⟨S100000x32, .f32⟩ : BufTy).Contents (Elt F) → (⟨S100000x32, .f32⟩ : BufTy).Contents (Elt F) → (⟨S100000x32, .f32⟩ : BufTy).Contents (Elt F)),
    StableHlo.unary main_arg23 main_v108 (broadcastInDim S1x32 ![1] bcast_S32_S1x32_1 : (⟨S32, .f32⟩ : BufTy).Contents (Elt F) → (⟨S1x32, .f32⟩ : BufTy).Contents (Elt F)),
    StableHlo.unary main_v108 main_v109 (broadcastInDim S100000x32 ![0, 1] bcast_S1x32_S100000x32_0_1 : (⟨S1x32, .f32⟩ : BufTy).Contents (Elt F) → (⟨S100000x32, .f32⟩ : BufTy).Contents (Elt F)),
    StableHlo.binary main_v107 main_v109 main_v110 (addf : (⟨S100000x32, .f32⟩ : BufTy).Contents (Elt F) → (⟨S100000x32, .f32⟩ : BufTy).Contents (Elt F) → (⟨S100000x32, .f32⟩ : BufTy).Contents (Elt F)),
    StableHlo.nullary main_cst_14 (constant S_ .f32 0x3C23D70A#32),
    TRef.nullary main_call4.cst (constant S_ .f32 0x00000000#32),
    TRef.unary main_call4.cst main_call4.v0 (broadcastInDim S100000x32 ![] bcast_S_S100000x32),
    TRef.binary (.of main_v110 : TRef sig ⟨S100000x32, .f32⟩) main_call4.v0 main_call4.v1 (cmpf .oge),
    TRef.unary (.of main_cst_14 : TRef sig ⟨S_, .f32⟩) main_call4.v2 id,
    TRef.unary main_call4.v2 main_call4.v3 (broadcastInDim S100000x32 ![] bcast_S_S100000x32),
    TRef.binary main_call4.v3 (.of main_v110 : TRef sig ⟨S100000x32, .f32⟩) main_call4.v4 mulf,
    TRef.ternary main_call4.v1 (.of main_v110 : TRef sig ⟨S100000x32, .f32⟩) main_call4.v4 main_call4.call0.v0 select,
    StableHlo.unary main_arg26 main_v112 ((transpose S32x32 [1, 0] · transposes_S32x32_S32x32_1_0) : (⟨S32x32, .f32⟩ : BufTy).Contents (Elt F) → (⟨S32x32, .f32⟩ : BufTy).Contents (Elt F)),
    StableHlo.binary main_v111 main_v112 main_v113 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg27 main_v114 (broadcastInDim S1x32 ![1] bcast_S32_S1x32_1 : (⟨S32, .f32⟩ : BufTy).Contents (Elt F) → (⟨S1x32, .f32⟩ : BufTy).Contents (Elt F)),
    StableHlo.unary main_v114 main_v115 (broadcastInDim S100000x32 ![0, 1] bcast_S1x32_S100000x32_0_1 : (⟨S1x32, .f32⟩ : BufTy).Contents (Elt F) → (⟨S100000x32, .f32⟩ : BufTy).Contents (Elt F)),
    StableHlo.binary main_v113 main_v115 main_v116 (addf : (⟨S100000x32, .f32⟩ : BufTy).Contents (Elt F) → (⟨S100000x32, .f32⟩ : BufTy).Contents (Elt F) → (⟨S100000x32, .f32⟩ : BufTy).Contents (Elt F)),
    StableHlo.nullary main_cst_15 (constant S_ .f32 0x3C23D70A#32),
    TRef.nullary main_call5.cst (constant S_ .f32 0x00000000#32),
    TRef.unary main_call5.cst main_call5.v0 (broadcastInDim S100000x32 ![] bcast_S_S100000x32),
    TRef.binary (.of main_v116 : TRef sig ⟨S100000x32, .f32⟩) main_call5.v0 main_call5.v1 (cmpf .oge),
    TRef.unary (.of main_cst_15 : TRef sig ⟨S_, .f32⟩) main_call5.v2 id,
    TRef.unary main_call5.v2 main_call5.v3 (broadcastInDim S100000x32 ![] bcast_S_S100000x32),
    TRef.binary main_call5.v3 (.of main_v116 : TRef sig ⟨S100000x32, .f32⟩) main_call5.v4 mulf,
    TRef.ternary main_call5.v1 (.of main_v116 : TRef sig ⟨S100000x32, .f32⟩) main_call5.v4 main_call5.call0.v0 select,
    StableHlo.nullary main_cst_16 (constant S_ .f32 0x00000000#32),
    StableHlo.unary main_cst_16 main_v118 (broadcastInDim S2048x32 ![] bcast_S_S2048x32 : (⟨S_, .f32⟩ : BufTy).Contents (Elt F) → (⟨S2048x32, .f32⟩ : BufTy).Contents (Elt F)),
    StableHlo.unary main_arg3 main_v119 (broadcastInDim S100000x1 ![0] bcast_S100000_S100000x1_0 : (⟨S100000, .i32⟩ : BufTy).Contents (Elt F) → (⟨S100000x1, .i32⟩ : BufTy).Contents (Elt F)),
    StableHlo.ternary main_v118 main_v119 main_v41 main_v120 ((fun x i u => Host.scatterAdd scatter_S2048x32_S100000x1_S100000x32_1_0_0_1 x i u) : (⟨S2048x32, .f32⟩ : BufTy).Contents (Elt F) → (⟨S100000x1, .i32⟩ : BufTy).Contents (Elt F) → (⟨S100000x32, .f32⟩ : BufTy).Contents (Elt F) → (⟨S2048x32, .f32⟩ : BufTy).Contents (Elt F)),
    StableHlo.nullary main_cst_17 (constant S_ .f32 0x00000000#32),
    StableHlo.unary main_cst_17 main_v121 (broadcastInDim S2048x32 ![] bcast_S_S2048x32 : (⟨S_, .f32⟩ : BufTy).Contents (Elt F) → (⟨S2048x32, .f32⟩ : BufTy).Contents (Elt F)),
    StableHlo.unary main_arg3 main_v122 (broadcastInDim S100000x1 ![0] bcast_S100000_S100000x1_0 : (⟨S100000, .i32⟩ : BufTy).Contents (Elt F) → (⟨S100000x1, .i32⟩ : BufTy).Contents (Elt F)),
    StableHlo.ternary main_v121 main_v122 main_v79 main_v123 ((fun x i u => Host.scatterAdd scatter_S2048x32_S100000x1_S100000x32_1_0_0_1 x i u) : (⟨S2048x32, .f32⟩ : BufTy).Contents (Elt F) → (⟨S100000x1, .i32⟩ : BufTy).Contents (Elt F) → (⟨S100000x32, .f32⟩ : BufTy).Contents (Elt F) → (⟨S2048x32, .f32⟩ : BufTy).Contents (Elt F)),
    StableHlo.nullary main_cst_18 (constant S_ .f32 0x00000000#32),
    StableHlo.unary main_cst_18 main_v124 (broadcastInDim S2048x32 ![] bcast_S_S2048x32 : (⟨S_, .f32⟩ : BufTy).Contents (Elt F) → (⟨S2048x32, .f32⟩ : BufTy).Contents (Elt F)),
    StableHlo.unary main_arg3 main_v125 (broadcastInDim S100000x1 ![0] bcast_S100000_S100000x1_0 : (⟨S100000, .i32⟩ : BufTy).Contents (Elt F) → (⟨S100000x1, .i32⟩ : BufTy).Contents (Elt F)),
    StableHlo.ternary main_v124 main_v125 main_v117 main_v126 ((fun x i u => Host.scatterAdd scatter_S2048x32_S100000x1_S100000x32_1_0_0_1 x i u) : (⟨S2048x32, .f32⟩ : BufTy).Contents (Elt F) → (⟨S100000x1, .i32⟩ : BufTy).Contents (Elt F) → (⟨S100000x32, .f32⟩ : BufTy).Contents (Elt F) → (⟨S2048x32, .f32⟩ : BufTy).Contents (Elt F)),
    StableHlo.nary ![main_v120, main_v123, main_v126] main_v127 (fun u => concatenate S2048x96 1 [⟨S2048x32, u 0⟩, ⟨S2048x32, u 1⟩, ⟨S2048x32, u 2⟩] concatenates_S2048x32_S2048x32_S2048x32_S2048x96_d1),
    StableHlo.unary main_arg28 main_v128 ((transpose S96x96 [1, 0] · transposes_S96x96_S96x96_1_0) : (⟨S96x96, .f32⟩ : BufTy).Contents (Elt F) → (⟨S96x96, .f32⟩ : BufTy).Contents (Elt F)),
    StableHlo.binary main_v127 main_v128 main_v129 ((fun l r => Host.dotGeneral dot_S2048x96_S96x96_S2048x96_1_0_0_1_n_n none l r) : (⟨S2048x96, .f32⟩ : BufTy).Contents (Elt F) → (⟨S96x96, .f32⟩ : BufTy).Contents (Elt F) → (⟨S2048x96, .f32⟩ : BufTy).Contents (Elt F)),
    StableHlo.unary main_arg29 main_v130 (broadcastInDim S1x96 ![1] bcast_S96_S1x96_1 : (⟨S96, .f32⟩ : BufTy).Contents (Elt F) → (⟨S1x96, .f32⟩ : BufTy).Contents (Elt F)),
    StableHlo.unary main_v130 main_v131 (broadcastInDim S2048x96 ![0, 1] bcast_S1x96_S2048x96_0_1 : (⟨S1x96, .f32⟩ : BufTy).Contents (Elt F) → (⟨S2048x96, .f32⟩ : BufTy).Contents (Elt F)),
    StableHlo.binary main_v129 main_v131 main_v132 (addf : (⟨S2048x96, .f32⟩ : BufTy).Contents (Elt F) → (⟨S2048x96, .f32⟩ : BufTy).Contents (Elt F) → (⟨S2048x96, .f32⟩ : BufTy).Contents (Elt F)),
    TRef.nullary main_call6.cst (constant S_ .f32 0x00000000#32),
    TRef.unary main_call6.cst main_call6.v0 (broadcastInDim S2048x96 ![] bcast_S_S2048x96),
    TRef.binary (.of main_v132 : TRef sig ⟨S2048x96, .f32⟩) main_call6.v0 main_call6.v1 maximumf,
    StableHlo.unary main_arg30 main_v134 ((transpose S96x10 [1, 0] · transposes_S10x96_S96x10_1_0) : (⟨S10x96, .f32⟩ : BufTy).Contents (Elt F) → (⟨S96x10, .f32⟩ : BufTy).Contents (Elt F)),
    StableHlo.binary main_v133 main_v134 main_v135 ((fun l r => Host.dotGeneral dot_S2048x96_S96x10_S2048x10_1_0_0_1_n_n none l r) : (⟨S2048x96, .f32⟩ : BufTy).Contents (Elt F) → (⟨S96x10, .f32⟩ : BufTy).Contents (Elt F) → (⟨S2048x10, .f32⟩ : BufTy).Contents (Elt F)),
    StableHlo.unary main_arg31 main_v136 (broadcastInDim S1x10 ![1] bcast_S10_S1x10_1 : (⟨S10, .f32⟩ : BufTy).Contents (Elt F) → (⟨S1x10, .f32⟩ : BufTy).Contents (Elt F)),
    StableHlo.unary main_v136 main_v137 (broadcastInDim S2048x10 ![0, 1] bcast_S1x10_S2048x10_0_1 : (⟨S1x10, .f32⟩ : BufTy).Contents (Elt F) → (⟨S2048x10, .f32⟩ : BufTy).Contents (Elt F)),
    StableHlo.binary main_v135 main_v137 main_v138 (addf : (⟨S2048x10, .f32⟩ : BufTy).Contents (Elt F) → (⟨S2048x10, .f32⟩ : BufTy).Contents (Elt F) → (⟨S2048x10, .f32⟩ : BufTy).Contents (Elt F)),
    StableHlo.nullary main_cst_19 (constant S_ .f32 0x3C23D70A#32),
    TRef.nullary main_call7.cst (constant S_ .f32 0x00000000#32),
    TRef.unary main_call7.cst main_call7.v0 (broadcastInDim S2048x10 ![] bcast_S_S2048x10),
    TRef.binary (.of main_v138 : TRef sig ⟨S2048x10, .f32⟩) main_call7.v0 main_call7.v1 (cmpf .oge),
    TRef.unary (.of main_cst_19 : TRef sig ⟨S_, .f32⟩) main_call7.v2 id,
    TRef.unary main_call7.v2 main_call7.v3 (broadcastInDim S2048x10 ![] bcast_S_S2048x10),
    TRef.binary main_call7.v3 (.of main_v138 : TRef sig ⟨S2048x10, .f32⟩) main_call7.v4 mulf,
    TRef.ternary main_call7.v1 (.of main_v138 : TRef sig ⟨S2048x10, .f32⟩) main_call7.v4 main_call7.call0.v0 select ]

abbrev ops2_W : List (Ref sig .tc) :=
  [main_v104, main_v105, main_v106, main_v107, main_v108, main_v109, main_v110, main_cst_14, main_call4_cst, main_call4_v0, main_call4_v1, main_call4_v2, main_call4_v3, main_call4_v4, main_v111, main_v112, main_v113, main_v114, main_v115, main_v116, main_cst_15, main_call5_cst, main_call5_v0, main_call5_v1, main_call5_v2, main_call5_v3, main_call5_v4, main_v117, main_cst_16, main_v118, main_v119, main_v120, main_cst_17, main_v121, main_v122, main_v123, main_cst_18, main_v124, main_v125, main_v126, main_v127, main_v128, main_v129, main_v130, main_v131, main_v132, main_call6_cst, main_call6_v0, main_v133, main_v134, main_v135, main_v136, main_v137, main_v138, main_cst_19, main_call7_cst, main_call7_v0, main_call7_v1, main_call7_v2, main_call7_v3, main_call7_v4, main_v139]

set_option maxRecDepth 8192 in
theorem ops2_sub : (ops2 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem ops2_writes : (ops2 : List (HloOp τ sig (Elt F))).Forall fun op =>
    op.writes ⊆ (ops2_W.map (Proc.devRef (τ := τ) .tc)).toFinset := by
  simp only [List.Forall]
  and_intros <;> (simp only [nullary_writes, unary_writes, binary_writes, ternary_writes, reshape_writes, nary_writes, Finset.singleton_subset_iff, List.mem_toFinset]; exact List.mem_map_of_mem (by decide))

end Cert.ReferenceIdeal.Hand

end
-- ==== Proof.LibAfter.lean ====
import Idealize.ShloMosaic.Lib.StableHlo.Run

noncomputable section

namespace Cert.Lib

open Idealize.ShloMosaic Idealize.ShloMosaic.StableHlo

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.Lib

end
-- ==== Proof.Ref.Ops.lean ====
import proofs.«416321_j46445776339725_1_alg».proof.Proof.Ref.Tab
import proofs.«416321_j46445776339725_1_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ (ops1 ++ ops2)

set_option maxRecDepth 8192 in
set_option maxHeartbeats 4000000 in

theorem part0_eq (c : Dev nD) : main_part0 (F := F) c = seq ops0 := by
  simp only [main_part0, fn_leaky_relu.body, fn_where.body, seq, bind_assoc, pure_bind]
  rfl

set_option maxRecDepth 8192 in
set_option maxHeartbeats 4000000 in

theorem part1_eq (c : Dev nD) : main_part1 (F := F) c = seq ops1 := by
  simp only [main_part1, fn_leaky_relu.body, fn_where.body, seq, bind_assoc, pure_bind]
  rfl

set_option maxRecDepth 8192 in
set_option maxHeartbeats 4000000 in

theorem part2_eq (c : Dev nD) : main_part2 (F := F) c = seq ops2 := by
  simp only [main_part2, fn_leaky_relu.body, fn_where.body, fn_relu.body, fn_leaky_relu_0.body, fn_where_1.body, seq, bind_assoc,
    pure_bind]

theorem main_eq (c : Dev nD) : main (F := F) c = seq ops := by
  simp only [ops, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

set_option maxRecDepth 8192 in
theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h
  exacts [ops0_fresh op h, ops1_fresh op h, ops2_fresh op h]

theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops2 (after ops1 (after ops0 (launchContents m c))) (Proc.devRef .tc b) :=
  (θ_run defs _ _).mono (fun _ h c b => (h c b).trans (by rw [Cert.Lib.after_append, Cert.Lib.after_append]))
    (run_seq scopedRefs_eq scopedSems_eq defs main (fun _ => ops) main_eq (fun _ => ops_sub) m ρ (fun _ => ops_fresh))

end Cert.ReferenceIdeal.Hand

end
-- ==== Proof.Val.Spec.lean ====
import proofs.«416321_j46445776339725_1_alg».proof.Proof.Gen.ReferenceIdeal
import Idealize.ShloMosaic.PureOps.Ideal

noncomputable section

namespace Cert.Spec

open Idealize.ShloMosaic Cert.ReferenceIdeal Cert.ReferenceIdeal.Gen

def row32 (b : FVec Ideal S32 .f32) : FVec Ideal S100000x32 .f32 :=
  broadcastInDim S100000x32 ![0, 1] bcast_S1x32_S100000x32_0_1 (broadcastInDim S1x32 ![1] bcast_S32_S1x32_1 b)

def leaky (x : FVec Ideal S100000x32 .f32) : FVec Ideal S100000x32 .f32 :=
  select (cmpf .oge x (broadcastInDim S100000x32 ![] bcast_S_S100000x32 (constant (F := Ideal) S_ .f32 0x00000000#32))) x
    (mulf (broadcastInDim S100000x32 ![] bcast_S_S100000x32 (constant (F := Ideal) S_ .f32 0x3C23D70A#32)) x)

def mlp (z : FVec Ideal S100000x32 .f32) (w1 : FVec Ideal S32x32 .f32) (b1 g bt mu v : FVec Ideal S32 .f32)
    (w2 : FVec Ideal S32x32 .f32) (b2 : FVec Ideal S32 .f32) : FVec Ideal S100000x32 .f32 :=
  leaky (addf (Host.dotGeneral dot_S100000x32_S32x32_S100000x32_1_0_0_1_n_n none
      (leaky (addf (mulf (mulf (subf (addf (Host.dotGeneral dot_S100000x32_S32x32_S100000x32_1_0_0_1_n_n none z
                (transpose S32x32 [1, 0] w1 transposes_S32x32_S32x32_1_0)) (row32 b1)) (row32 mu))
              (row32 (Host.rsqrt (addf v (broadcastInDim S32 ![] bcast_S_S32 (constant (F := Ideal) S_ .f32 0x3727C5AC#32))))))
            (row32 g)) (row32 bt)))
      (transpose S32x32 [1, 0] w2 transposes_S32x32_S32x32_1_0)) (row32 b2))

def aggr (h : FVec Ideal S100000x32 .f32) (gi si : IVec S3200000x1 32) : FVec Ideal S100000x32 .f32 :=
  addf h (Host.scatterAdd scatter_S100000x32_S3200000x1_S3200000x32_1_0_0_1
    (broadcastInDim S100000x32 ![] bcast_S_S100000x32 (constant (F := Ideal) S_ .f32 0x00000000#32)) si
    (Host.gather gather_S100000x32_S3200000x1_S3200000x32_1_0_n_n_0_1_132 h gi))

def segsum (h : FVec Ideal S100000x32 .f32) (bi : IVec S100000x1 32) : FVec Ideal S2048x32 .f32 :=
  Host.scatterAdd scatter_S2048x32_S100000x1_S100000x32_1_0_0_1
    (broadcastInDim S2048x32 ![] bcast_S_S2048x32 (constant (F := Ideal) S_ .f32 0x00000000#32)) bi h

def pool (h1 h2 h3 : FVec Ideal S100000x32 .f32) (bi : IVec S100000x1 32) : FVec Ideal S2048x96 .f32 :=
  concatenate S2048x96 1 [⟨S2048x32, segsum h1 bi⟩, ⟨S2048x32, segsum h2 bi⟩, ⟨S2048x32, segsum h3 bi⟩]
    concatenates_S2048x32_S2048x32_S2048x32_S2048x96_d1

def head (p : FVec Ideal S2048x96 .f32) (l1w : FVec Ideal S96x96 .f32) (l1b : FVec Ideal S96 .f32)
    (l2w : FVec Ideal S10x96 .f32) (l2b : FVec Ideal S10 .f32) : FVec Ideal S2048x10 .f32 :=
  let y := addf (Host.dotGeneral dot_S2048x96_S96x10_S2048x10_1_0_0_1_n_n none
      (maximumf (addf (Host.dotGeneral dot_S2048x96_S96x96_S2048x96_1_0_0_1_n_n none p
          (transpose S96x96 [1, 0] l1w transposes_S96x96_S96x96_1_0))
        (broadcastInDim S2048x96 ![0, 1] bcast_S1x96_S2048x96_0_1 (broadcastInDim S1x96 ![1] bcast_S96_S1x96_1 l1b)))
        (broadcastInDim S2048x96 ![] bcast_S_S2048x96 (constant (F := Ideal) S_ .f32 0x00000000#32)))
      (transpose S96x10 [1, 0] l2w transposes_S10x96_S96x10_1_0))
    (broadcastInDim S2048x10 ![0, 1] bcast_S1x10_S2048x10_0_1 (broadcastInDim S1x10 ![1] bcast_S10_S1x10_1 l2b))
  select (cmpf .oge y (broadcastInDim S2048x10 ![] bcast_S_S2048x10 (constant (F := Ideal) S_ .f32 0x00000000#32))) y
    (mulf (broadcastInDim S2048x10 ![] bcast_S_S2048x10 (constant (F := Ideal) S_ .f32 0x3C23D70A#32)) y)

end Cert.Spec

end
-- ==== Proof.Val.SpecIdx.lean ====
import proofs.«416321_j46445776339725_1_alg».proof.Proof.Val.Spec

noncomputable section

namespace Cert.Spec

open Idealize.ShloMosaic Cert.ReferenceIdeal Cert.ReferenceIdeal.Gen

def srcRow (ei : IVec S2x3200000 32) : IVec S3200000 32 :=
  shapeCast S3200000 (extractStridedSlice S1x3200000 ![0, 0] ei slices_S2x3200000_S1x3200000_0_0) shapeCasts_S1x3200000_S3200000

def dstRow (ei : IVec S2x3200000 32) : IVec S3200000 32 :=
  shapeCast S3200000 (extractStridedSlice S1x3200000 ![1, 0] ei slices_S2x3200000_S1x3200000_1_0) shapeCasts_S1x3200000_S3200000

def gidx (ei : IVec S2x3200000 32) : IVec S3200000x1 32 :=
  broadcastInDim S3200000x1 ![0] bcast_S3200000_S3200000x1_0
    (select (cmpi .slt (srcRow ei) (broadcastInDim S3200000 ![] bcast_S_S3200000 (constantI S_ 32 0#32)))
      (addi (srcRow ei) (broadcastInDim S3200000 ![] bcast_S_S3200000 (constantI S_ 32 100000#32))) (srcRow ei))

def sidx (ei : IVec S2x3200000 32) : IVec S3200000x1 32 :=
  broadcastInDim S3200000x1 ![0] bcast_S3200000_S3200000x1_0 (dstRow ei)

def bidx (b : IVec S100000 32) : IVec S100000x1 32 :=
  broadcastInDim S100000x1 ![0] bcast_S100000_S100000x1_0 b

def result (x : FVec Ideal S100000x32 .f32) (ei : IVec S2x3200000 32) (b : IVec S100000 32)
    (c1w1 : FVec Ideal S32x32 .f32) (c1b1 c1g c1bt c1m c1v : FVec Ideal S32 .f32) (c1w2 : FVec Ideal S32x32 .f32) (c1b2 : FVec Ideal S32 .f32)
    (c2w1 : FVec Ideal S32x32 .f32) (c2b1 c2g c2bt c2m c2v : FVec Ideal S32 .f32) (c2w2 : FVec Ideal S32x32 .f32) (c2b2 : FVec Ideal S32 .f32)
    (c3w1 : FVec Ideal S32x32 .f32) (c3b1 c3g c3bt c3m c3v : FVec Ideal S32 .f32) (c3w2 : FVec Ideal S32x32 .f32) (c3b2 : FVec Ideal S32 .f32)
    (l1w : FVec Ideal S96x96 .f32) (l1b : FVec Ideal S96 .f32) (l2w : FVec Ideal S10x96 .f32) (l2b : FVec Ideal S10 .f32) :
    FVec Ideal S2048x10 .f32 :=
  let h1 := mlp (aggr x (gidx ei) (sidx ei)) c1w1 c1b1 c1g c1bt c1m c1v c1w2 c1b2
  let h2 := mlp (aggr h1 (gidx ei) (sidx ei)) c2w1 c2b1 c2g c2bt c2m c2v c2w2 c2b2
  let h3 := mlp (aggr h2 (gidx ei) (sidx ei)) c3w1 c3b1 c3g c3bt c3m c3v c3w2 c3b2
  head (pool h1 h2 h3 (bidx b)) l1w l1b l2w l2b

end Cert.Spec

end
-- ==== Proof.Ref.Val0.lean ====
import proofs.«416321_j46445776339725_1_alg».proof.Proof.Ref.Tab
import proofs.«416321_j46445776339725_1_alg».proof.Proof.Val.SpecIdx

noncomputable section

namespace Cert.ReferenceIdeal.Hand

open Cert.ReferenceIdeal Cert.ReferenceIdeal.Gen Idealize.ShloMosaic Idealize.ShloMosaic.TcCoe Idealize.SL.Sem Idealize.ShloMosaic.StableHlo

abbrev Vals := Valuation τ sig (Elt Ideal)

def after0 (V : Vals) : Vals := after (ops0 (F := Ideal)) V

def h1 (V : Vals) : FVec Ideal S100000x32 .f32 :=
  Spec.mlp (Spec.aggr (V (main_arg0 : DevRef τ sig)) (Spec.gidx (V (main_arg2 : DevRef τ sig))) (Spec.sidx (V (main_arg2 : DevRef τ sig))))
    (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))

theorem after0_keep (V : Vals) (r : Ref sig .tc) (h : r ∉ ops0_W) :
    after0 V (no_index (Proc.devRef .tc r)) = V (Proc.devRef .tc r) :=
  after_of_writes_sub ops0 V ops0_writes h

set_option maxRecDepth 8192 in
set_option maxHeartbeats 8000000 in

theorem after0_v41 (V : Vals) : after0 V (no_index (Proc.devRef .tc main_v41)) = h1 V := by
  unfold after0
  simp only [ops0]
  after_results_simp
  rfl

set_option maxRecDepth 8192 in
set_option maxHeartbeats 8000000 in

theorem after0_v48 (V : Vals) : after0 V (no_index (Proc.devRef .tc main_v48))
    = Host.gather gather_S100000x32_S3200000x1_S3200000x32_1_0_n_n_0_1_132 (h1 V) (Spec.gidx (V (main_arg2 : DevRef τ sig))) := by
  unfold after0
  simp only [ops0]
  after_results_simp
  rfl

set_option maxRecDepth 8192 in
set_option maxHeartbeats 8000000 in

theorem after0_v49 (V : Vals) : after0 V (no_index (Proc.devRef .tc main_v49))
    = broadcastInDim S100000x32 ![] bcast_S_S100000x32 (constant (F := Ideal) S_ .f32 0x00000000#32) := by
  unfold after0
  simp only [ops0]
  after_results_simp

set_option maxRecDepth 8192 in
set_option maxHeartbeats 8000000 in

theorem after0_v50 (V : Vals) : after0 V (no_index (Proc.devRef .tc main_v50)) = Spec.sidx (V (main_arg2 : DevRef τ sig)) := by
  unfold after0
  simp only [ops0]
  after_results_simp
  rfl

set_option maxRecDepth 8192 in
set_option maxHeartbeats 8000000 in

theorem after0_v1 (V : Vals) : after0 V (no_index (Proc.devRef .tc main_v1)) = Spec.srcRow (V (main_arg2 : DevRef τ sig)) := by
  unfold after0
  simp only [ops0]
  after_results_simp
  rfl

set_option maxRecDepth 8192 in
set_option maxHeartbeats 8000000 in

theorem after0_v3 (V : Vals) : after0 V (no_index (Proc.devRef .tc main_v3)) = Spec.dstRow (V (main_arg2 : DevRef τ sig)) := by
  unfold after0
  simp only [ops0]
  after_results_simp
  rfl

end Cert.ReferenceIdeal.Hand

end
-- ==== Proof.Ref.Val1.lean ====
import proofs.«416321_j46445776339725_1_alg».proof.Proof.Ref.Tab
import proofs.«416321_j46445776339725_1_alg».proof.Proof.Val.SpecIdx

noncomputable section

namespace Cert.ReferenceIdeal.Hand

open Cert.ReferenceIdeal Cert.ReferenceIdeal.Gen Idealize.ShloMosaic Idealize.ShloMosaic.TcCoe Idealize.SL.Sem Idealize.ShloMosaic.StableHlo

local notation "Vals" => Valuation τ sig (Elt Ideal)

def after1 (V : Vals) : Vals := after (ops1 (F := Ideal)) V

def srcCol (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

def dstCol (s : IVec S3200000 32) : IVec S3200000x1 32 :=
  broadcastInDim S3200000x1 ![0] bcast_S3200000_S3200000x1_0 s

def h2 (V : Vals) : FVec Ideal S100000x32 .f32 :=
  Spec.mlp (addf (V (main_v41 : DevRef τ sig)) (Host.scatterAdd scatter_S100000x32_S3200000x1_S3200000x32_1_0_0_1 (V (main_v49 : DevRef τ sig)) (V (main_v50 : DevRef τ sig)) (V (main_v48 : DevRef τ sig))))
    (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig))

def pre3 (V : Vals) : FVec Ideal S100000x32 .f32 :=
  subf (addf (Host.dotGeneral (φ₂ := .f32) dot_S100000x32_S32x32_S100000x32_1_0_0_1_n_n none
      (Spec.aggr (h2 V) (srcCol (V (main_v1 : DevRef τ sig))) (dstCol (V (main_v3 : DevRef τ sig))))
      (transpose S32x32 [1, 0] (V (main_arg20 : DevRef τ sig) : FVec Ideal S32x32 .f32) transposes_S32x32_S32x32_1_0)) (Spec.row32 (V (main_arg21 : DevRef τ sig)))) (Spec.row32 (V (main_arg24 : DevRef τ sig)))

def rs3 (V : Vals) : FVec Ideal S100000x32 .f32 :=
  Spec.row32 (Host.rsqrt (addf (V (main_arg25 : DevRef τ sig)) (broadcastInDim S32 ![] bcast_S_S32 (constant (F := Ideal) S_ .f32 0x3727C5AC#32))))

theorem after1_keep (V : Vals) (r : Ref sig .tc) (h : r ∉ ops1_W) :
    after1 V (no_index (Proc.devRef .tc r)) = V (Proc.devRef .tc r) :=
  after_of_writes_sub ops1 V ops1_writes h

set_option maxRecDepth 65536 in
set_option maxHeartbeats 8000000 in

theorem after1_v79 (V : Vals) : after1 V (no_index (Proc.devRef .tc main_v79)) = h2 V := by
  unfold after1
  simp only [ops1]
  after_results_simp
  rfl

set_option maxRecDepth 65536 in
set_option maxHeartbeats 8000000 in

theorem after1_v98 (V : Vals) : after1 V (no_index (Proc.devRef .tc main_v98)) = pre3 V := by
  unfold after1
  simp only [ops1]
  after_results_simp
  rfl

set_option maxRecDepth 65536 in
set_option maxHeartbeats 8000000 in

theorem after1_v103 (V : Vals) : after1 V (no_index (Proc.devRef .tc main_v103)) = rs3 V := by
  unfold after1
  simp only [ops1]
  after_results_simp
  rfl

end Cert.ReferenceIdeal.Hand

end
-- ==== Proof.Ref.Tab2.lean ====
import proofs.«416321_j46445776339725_1_alg».proof.Proof.Ref.Tab

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops2a : List (HloOp τ sig (Elt F)) :=
  [ StableHlo.binary main_v98 main_v103 main_v104 (mulf : (⟨S100000x32, .f32⟩ : BufTy).Contents (Elt F) → (⟨S100000x32, .f32⟩ : BufTy).Contents (Elt F) → (⟨S100000x32, .f32⟩ : BufTy).Contents (Elt F)),
    StableHlo.unary main_arg22 main_v105 (broadcastInDim S1x32 ![1] bcast_S32_S1x32_1 : (⟨S32, .f32⟩ : BufTy).Contents (Elt F) → (⟨S1x32, .f32⟩ : BufTy).Contents (Elt F)),
    StableHlo.unary main_v105 main_v106 (broadcastInDim S100000x32 ![0, 1] bcast_S1x32_S100000x32_0_1 : (⟨S1x32, .f32⟩ : BufTy).Contents (Elt F) → (⟨S100000x32, .f32⟩ : BufTy).Contents (Elt F)),
    StableHlo.binary main_v104 main_v106 main_v107 (mulf : (⟨S100000x32, .f32⟩ : BufTy).Contents (Elt F) → (⟨S100000x32, .f32⟩ : BufTy).Contents (Elt F) → (⟨S100000x32, .f32⟩ : BufTy).Contents (Elt F)),
    StableHlo.unary main_arg23 main_v108 (broadcastInDim S1x32 ![1] bcast_S32_S1x32_1 : (⟨S32, .f32⟩ : BufTy).Contents (Elt F) → (⟨S1x32, .f32⟩ : BufTy).Contents (Elt F)),
    StableHlo.unary main_v108 main_v109 (broadcastInDim S100000x32 ![0, 1] bcast_S1x32_S100000x32_0_1 : (⟨S1x32, .f32⟩ : BufTy).Contents (Elt F) → (⟨S100000x32, .f32⟩ : BufTy).Contents (Elt F)),
    StableHlo.binary main_v107 main_v109 main_v110 (addf : (⟨S100000x32, .f32⟩ : BufTy).Contents (Elt F) → (⟨S100000x32, .f32⟩ : BufTy).Contents (Elt F) → (⟨S100000x32, .f32⟩ : BufTy).Contents (Elt F)),
    StableHlo.nullary main_cst_14 (constant S_ .f32 0x3C23D70A#32),
    TRef.nullary main_call4.cst (constant S_ .f32 0x00000000#32),
    TRef.unary main_call4.cst main_call4.v0 (broadcastInDim S100000x32 ![] bcast_S_S100000x32),
    TRef.binary (.of main_v110 : TRef sig ⟨S100000x32, .f32⟩) main_call4.v0 main_call4.v1 (cmpf .oge),
    TRef.unary (.of main_cst_14 : TRef sig ⟨S_, .f32⟩) main_call4.v2 id,
    TRef.unary main_call4.v2 main_call4.v3 (broadcastInDim S100000x32 ![] bcast_S_S100000x32),
    TRef.binary main_call4.v3 (.of main_v110 : TRef sig ⟨S100000x32, .f32⟩) main_call4.v4 mulf,
    TRef.ternary main_call4.v1 (.of main_v110 : TRef sig ⟨S100000x32, .f32⟩) main_call4.v4 main_call4.call0.v0 select,
    StableHlo.unary main_arg26 main_v112 ((transpose S32x32 [1, 0] · transposes_S32x32_S32x32_1_0) : (⟨S32x32, .f32⟩ : BufTy).Contents (Elt F) → (⟨S32x32, .f32⟩ : BufTy).Contents (Elt F)),
    StableHlo.binary main_v111 main_v112 main_v113 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg27 main_v114 (broadcastInDim S1x32 ![1] bcast_S32_S1x32_1 : (⟨S32, .f32⟩ : BufTy).Contents (Elt F) → (⟨S1x32, .f32⟩ : BufTy).Contents (Elt F)),
    StableHlo.unary main_v114 main_v115 (broadcastInDim S100000x32 ![0, 1] bcast_S1x32_S100000x32_0_1 : (⟨S1x32, .f32⟩ : BufTy).Contents (Elt F) → (⟨S100000x32, .f32⟩ : BufTy).Contents (Elt F)),
    StableHlo.binary main_v113 main_v115 main_v116 (addf : (⟨S100000x32, .f32⟩ : BufTy).Contents (Elt F) → (⟨S100000x32, .f32⟩ : BufTy).Contents (Elt F) → (⟨S100000x32, .f32⟩ : BufTy).Contents (Elt F)),
    StableHlo.nullary main_cst_15 (constant S_ .f32 0x3C23D70A#32),
    TRef.nullary main_call5.cst (constant S_ .f32 0x00000000#32),
    TRef.unary main_call5.cst main_call5.v0 (broadcastInDim S100000x32 ![] bcast_S_S100000x32),
    TRef.binary (.of main_v116 : TRef sig ⟨S100000x32, .f32⟩) main_call5.v0 main_call5.v1 (cmpf .oge),
    TRef.unary (.of main_cst_15 : TRef sig ⟨S_, .f32⟩) main_call5.v2 id,
    TRef.unary main_call5.v2 main_call5.v3 (broadcastInDim S100000x32 ![] bcast_S_S100000x32),
    TRef.binary main_call5.v3 (.of main_v116 : TRef sig ⟨S100000x32, .f32⟩) main_call5.v4 mulf,
    TRef.ternary main_call5.v1 (.of main_v116 : TRef sig ⟨S100000x32, .f32⟩) main_call5.v4 main_call5.call0.v0 select,
    StableHlo.nullary main_cst_16 (constant S_ .f32 0x00000000#32),
    StableHlo.unary main_cst_16 main_v118 (broadcastInDim S2048x32 ![] bcast_S_S2048x32 : (⟨S_, .f32⟩ : BufTy).Contents (Elt F) → (⟨S2048x32, .f32⟩ : BufTy).Contents (Elt F)),
    StableHlo.unary main_arg3 main_v119 (broadcastInDim S100000x1 ![0] bcast_S100000_S100000x1_0 : (⟨S100000, .i32⟩ : BufTy).Contents (Elt F) → (⟨S100000x1, .i32⟩ : BufTy).Contents (Elt F)),
    StableHlo.ternary main_v118 main_v119 main_v41 main_v120 ((fun x i u => Host.scatterAdd scatter_S2048x32_S100000x1_S100000x32_1_0_0_1 x i u) : (⟨S2048x32, .f32⟩ : BufTy).Contents (Elt F) → (⟨S100000x1, .i32⟩ : BufTy).Contents (Elt F) → (⟨S100000x32, .f32⟩ : BufTy).Contents (Elt F) → (⟨S2048x32, .f32⟩ : BufTy).Contents (Elt F)),
    StableHlo.nullary main_cst_17 (constant S_ .f32 0x00000000#32),
    StableHlo.unary main_cst_17 main_v121 (broadcastInDim S2048x32 ![] bcast_S_S2048x32 : (⟨S_, .f32⟩ : BufTy).Contents (Elt F) → (⟨S2048x32, .f32⟩ : BufTy).Contents (Elt F)),
    StableHlo.unary main_arg3 main_v122 (broadcastInDim S100000x1 ![0] bcast_S100000_S100000x1_0 : (⟨S100000, .i32⟩ : BufTy).Contents (Elt F) → (⟨S100000x1, .i32⟩ : BufTy).Contents (Elt F)),
    StableHlo.ternary main_v121 main_v122 main_v79 main_v123 ((fun x i u => Host.scatterAdd scatter_S2048x32_S100000x1_S100000x32_1_0_0_1 x i u) : (⟨S2048x32, .f32⟩ : BufTy).Contents (Elt F) → (⟨S100000x1, .i32⟩ : BufTy).Contents (Elt F) → (⟨S100000x32, .f32⟩ : BufTy).Contents (Elt F) → (⟨S2048x32, .f32⟩ : BufTy).Contents (Elt F)),
    StableHlo.nullary main_cst_18 (constant S_ .f32 0x00000000#32),
    StableHlo.unary main_cst_18 main_v124 (broadcastInDim S2048x32 ![] bcast_S_S2048x32 : (⟨S_, .f32⟩ : BufTy).Contents (Elt F) → (⟨S2048x32, .f32⟩ : BufTy).Contents (Elt F)),
    StableHlo.unary main_arg3 main_v125 (broadcastInDim S100000x1 ![0] bcast_S100000_S100000x1_0 : (⟨S100000, .i32⟩ : BufTy).Contents (Elt F) → (⟨S100000x1, .i32⟩ : BufTy).Contents (Elt F)),
    StableHlo.ternary main_v124 main_v125 main_v117 main_v126 ((fun x i u => Host.scatterAdd scatter_S2048x32_S100000x1_S100000x32_1_0_0_1 x i u) : (⟨S2048x32, .f32⟩ : BufTy).Contents (Elt F) → (⟨S100000x1, .i32⟩ : BufTy).Contents (Elt F) → (⟨S100000x32, .f32⟩ : BufTy).Contents (Elt F) → (⟨S2048x32, .f32⟩ : BufTy).Contents (Elt F)) ]

abbrev ops2a_W : List (Ref sig .tc) :=
  [main_v104, main_v105, main_v106, main_v107, main_v108, main_v109, main_v110, main_cst_14, main_call4_cst, main_call4_v0, main_call4_v1, main_call4_v2, main_call4_v3, main_call4_v4, main_v111, main_v112, main_v113, main_v114, main_v115, main_v116, main_cst_15, main_call5_cst, main_call5_v0, main_call5_v1, main_call5_v2, main_call5_v3, main_call5_v4, main_v117, main_cst_16, main_v118, main_v119, main_v120, main_cst_17, main_v121, main_v122, main_v123, main_cst_18, main_v124, main_v125, main_v126]

set_option maxRecDepth 8192 in
theorem ops2a_writes : (ops2a : List (HloOp τ sig (Elt F))).Forall fun op =>
    op.writes ⊆ (ops2a_W.map (Proc.devRef (τ := τ) .tc)).toFinset := by
  simp only [List.Forall]
  and_intros <;> (simp only [nullary_writes, unary_writes, binary_writes, ternary_writes, reshape_writes, nary_writes, Finset.singleton_subset_iff, List.mem_toFinset]; exact List.mem_map_of_mem (by decide))

abbrev ops2b : List (HloOp τ sig (Elt F)) :=
  [ StableHlo.nary ![main_v120, main_v123, main_v126] main_v127 (fun u => concatenate S2048x96 1 [⟨S2048x32, u 0⟩, ⟨S2048x32, u 1⟩, ⟨S2048x32, u 2⟩] concatenates_S2048x32_S2048x32_S2048x32_S2048x96_d1),
    StableHlo.unary main_arg28 main_v128 ((transpose S96x96 [1, 0] · transposes_S96x96_S96x96_1_0) : (⟨S96x96, .f32⟩ : BufTy).Contents (Elt F) → (⟨S96x96, .f32⟩ : BufTy).Contents (Elt F)),
    StableHlo.binary main_v127 main_v128 main_v129 ((fun l r => Host.dotGeneral dot_S2048x96_S96x96_S2048x96_1_0_0_1_n_n none l r) : (⟨S2048x96, .f32⟩ : BufTy).Contents (Elt F) → (⟨S96x96, .f32⟩ : BufTy).Contents (Elt F) → (⟨S2048x96, .f32⟩ : BufTy).Contents (Elt F)),
    StableHlo.unary main_arg29 main_v130 (broadcastInDim S1x96 ![1] bcast_S96_S1x96_1 : (⟨S96, .f32⟩ : BufTy).Contents (Elt F) → (⟨S1x96, .f32⟩ : BufTy).Contents (Elt F)),
    StableHlo.unary main_v130 main_v131 (broadcastInDim S2048x96 ![0, 1] bcast_S1x96_S2048x96_0_1 : (⟨S1x96, .f32⟩ : BufTy).Contents (Elt F) → (⟨S2048x96, .f32⟩ : BufTy).Contents (Elt F)),
    StableHlo.binary main_v129 main_v131 main_v132 (addf : (⟨S2048x96, .f32⟩ : BufTy).Contents (Elt F) → (⟨S2048x96, .f32⟩ : BufTy).Contents (Elt F) → (⟨S2048x96, .f32⟩ : BufTy).Contents (Elt F)),
    TRef.nullary main_call6.cst (constant S_ .f32 0x00000000#32),
    TRef.unary main_call6.cst main_call6.v0 (broadcastInDim S2048x96 ![] bcast_S_S2048x96),
    TRef.binary (.of main_v132 : TRef sig ⟨S2048x96, .f32⟩) main_call6.v0 main_call6.v1 maximumf,
    StableHlo.unary main_arg30 main_v134 ((transpose S96x10 [1, 0] · transposes_S10x96_S96x10_1_0) : (⟨S10x96, .f32⟩ : BufTy).Contents (Elt F) → (⟨S96x10, .f32⟩ : BufTy).Contents (Elt F)),
    StableHlo.binary main_v133 main_v134 main_v135 ((fun l r => Host.dotGeneral dot_S2048x96_S96x10_S2048x10_1_0_0_1_n_n none l r) : (⟨S2048x96, .f32⟩ : BufTy).Contents (Elt F) → (⟨S96x10, .f32⟩ : BufTy).Contents (Elt F) → (⟨S2048x10, .f32⟩ : BufTy).Contents (Elt F)),
    StableHlo.unary main_arg31 main_v136 (broadcastInDim S1x10 ![1] bcast_S10_S1x10_1 : (⟨S10, .f32⟩ : BufTy).Contents (Elt F) → (⟨S1x10, .f32⟩ : BufTy).Contents (Elt F)),
    StableHlo.unary main_v136 main_v137 (broadcastInDim S2048x10 ![0, 1] bcast_S1x10_S2048x10_0_1 : (⟨S1x10, .f32⟩ : BufTy).Contents (Elt F) → (⟨S2048x10, .f32⟩ : BufTy).Contents (Elt F)),
    StableHlo.binary main_v135 main_v137 main_v138 (addf : (⟨S2048x10, .f32⟩ : BufTy).Contents (Elt F) → (⟨S2048x10, .f32⟩ : BufTy).Contents (Elt F) → (⟨S2048x10, .f32⟩ : BufTy).Contents (Elt F)),
    StableHlo.nullary main_cst_19 (constant S_ .f32 0x3C23D70A#32),
    TRef.nullary main_call7.cst (constant S_ .f32 0x00000000#32),
    TRef.unary main_call7.cst main_call7.v0 (broadcastInDim S2048x10 ![] bcast_S_S2048x10),
    TRef.binary (.of main_v138 : TRef sig ⟨S2048x10, .f32⟩) main_call7.v0 main_call7.v1 (cmpf .oge),
    TRef.unary (.of main_cst_19 : TRef sig ⟨S_, .f32⟩) main_call7.v2 id,
    TRef.unary main_call7.v2 main_call7.v3 (broadcastInDim S2048x10 ![] bcast_S_S2048x10),
    TRef.binary main_call7.v3 (.of main_v138 : TRef sig ⟨S2048x10, .f32⟩) main_call7.v4 mulf,
    TRef.ternary main_call7.v1 (.of main_v138 : TRef sig ⟨S2048x10, .f32⟩) main_call7.v4 main_call7.call0.v0 select ]

end Cert.ReferenceIdeal.Hand

end
-- ==== Proof.LibNary3.lean ====
import Idealize.ShloMosaic.Lib.StableHlo.Run

namespace Idealize.ShloMosaic.StableHlo

variable {nD : Nat} {τ : Topo} {sig : RefSig} {Val : EltTy → Type}

section

variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end

macro "after_results_simp3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.Ref.Val2.lean ====
import proofs.«416321_j46445776339725_1_alg».proof.Proof.Ref.Tab2
import proofs.«416321_j46445776339725_1_alg».proof.Proof.Val.SpecIdx
import proofs.«416321_j46445776339725_1_alg».proof.Proof.LibNary3
import proofs.«416321_j46445776339725_1_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

local notation "Vals" => Valuation τ sig (Elt Ideal)

def after2 (V : Vals) : Vals := after (ops2 (F := Ideal)) V

def after2a (V : Vals) : Vals := after (ops2a (F := Ideal)) V

def after2b (V : Vals) : Vals := after (ops2b (F := Ideal)) V

theorem ops2_split : (ops2 : List (HloOp τ sig (Elt Ideal))) = ops2a ++ ops2b := rfl

theorem after2_eq (V : Vals) : after2 V = after2b (after2a V) := by
  unfold after2 after2a after2b
  rw [ops2_split, Cert.Lib.after_append]

def h3 (V : Vals) : FVec Ideal S100000x32 .f32 :=
  Spec.leaky (addf (Host.dotGeneral (φ₂ := .f32) dot_S100000x32_S32x32_S100000x32_1_0_0_1_n_n none
      (Spec.leaky (addf (mulf (mulf (V (main_v98 : DevRef τ sig)) (V (main_v103 : DevRef τ sig))) (Spec.row32 (V (main_arg22 : DevRef τ sig)))) (Spec.row32 (V (main_arg23 : DevRef τ sig)))))
      (transpose S32x32 [1, 0] (V (main_arg26 : DevRef τ sig) : FVec Ideal S32x32 .f32) transposes_S32x32_S32x32_1_0)) (Spec.row32 (V (main_arg27 : DevRef τ sig))))

def out (V : Vals) : FVec Ideal S2048x10 .f32 :=
  Spec.head (Spec.pool (V (main_v41 : DevRef τ sig)) (V (main_v79 : DevRef τ sig)) (h3 V) (Spec.bidx (V (main_arg3 : DevRef τ sig))))
    (V (main_arg28 : DevRef τ sig)) (V (main_arg29 : DevRef τ sig)) (V (main_arg30 : DevRef τ sig)) (V (main_arg31 : DevRef τ sig))

def readout (s1 s2 s3 : FVec Ideal S2048x32 .f32) (l1w : FVec Ideal S96x96 .f32) (l1b : FVec Ideal S96 .f32)
    (l2w : FVec Ideal S10x96 .f32) (l2b : FVec Ideal S10 .f32) : FVec Ideal S2048x10 .f32 :=
  Spec.head (concatenate S2048x96 1 [⟨S2048x32, s1⟩, ⟨S2048x32, s2⟩, ⟨S2048x32, s3⟩]
    concatenates_S2048x32_S2048x32_S2048x32_S2048x96_d1) l1w l1b l2w l2b

theorem after2_keep (V : Vals) (r : Ref sig .tc) (h : r ∉ ops2_W) :
    after2 V (no_index (Proc.devRef .tc r)) = V (Proc.devRef .tc r) :=
  after_of_writes_sub ops2 V ops2_writes h

theorem after2a_keep (V : Vals) (r : Ref sig .tc) (h : r ∉ ops2a_W) :
    after2a V (no_index (Proc.devRef .tc r)) = V (Proc.devRef .tc r) :=
  after_of_writes_sub ops2a V ops2a_writes h

set_option maxRecDepth 8192 in
set_option maxHeartbeats 8000000 in

theorem after2a_v120 (V : Vals) : after2a V (no_index (Proc.devRef .tc main_v120))
    = Spec.segsum (V (main_v41 : DevRef τ sig)) (Spec.bidx (V (main_arg3 : DevRef τ sig))) := by
  unfold after2a
  simp only [ops2a]
  after_results_simp
  rfl

set_option maxRecDepth 8192 in
set_option maxHeartbeats 8000000 in

theorem after2a_v123 (V : Vals) : after2a V (no_index (Proc.devRef .tc main_v123))
    = Spec.segsum (V (main_v79 : DevRef τ sig)) (Spec.bidx (V (main_arg3 : DevRef τ sig))) := by
  unfold after2a
  simp only [ops2a]
  after_results_simp
  rfl

set_option maxRecDepth 8192 in
set_option maxHeartbeats 8000000 in

theorem after2a_v126 (V : Vals) : after2a V (no_index (Proc.devRef .tc main_v126))
    = Spec.segsum (h3 V) (Spec.bidx (V (main_arg3 : DevRef τ sig))) := by
  unfold after2a
  simp only [ops2a]
  after_results_simp
  rfl

set_option maxRecDepth 8192 in
set_option maxHeartbeats 8000000 in

theorem after2b_v139 (V : Vals) : after2b V (no_index (Proc.devRef .tc main_v139))
    = readout (V (main_v120 : DevRef τ sig)) (V (main_v123 : DevRef τ sig)) (V (main_v126 : DevRef τ sig)) (V (main_arg28 : DevRef τ sig)) (V (main_arg29 : DevRef τ sig)) (V (main_arg30 : DevRef τ sig)) (V (main_arg31 : DevRef τ sig)) := by
  unfold after2b
  simp only [ops2b]
  after_results_simp3
  rfl

set_option maxRecDepth 8192 in
set_option maxHeartbeats 8000000 in

theorem after2_v139 (V : Vals) : after2 V (no_index (Proc.devRef .tc main_v139)) = out V := by
  rw [after2_eq, after2b_v139]
  simp (disch := decide) only [after2a_v120, after2a_v123, after2a_v126, after2a_keep]
  rfl

end Cert.ReferenceIdeal.Hand

end
-- ==== Proof.Ref.Run.lean ====
import proofs.«416321_j46445776339725_1_alg».proof.Proof.Ref.Ops
import proofs.«416321_j46445776339725_1_alg».proof.Proof.Ref.Val0
import proofs.«416321_j46445776339725_1_alg».proof.Proof.Ref.Val1
import proofs.«416321_j46445776339725_1_alg».proof.Proof.Ref.Val2

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
set_option maxHeartbeats 8000000 in

theorem result_eq (V : Vals) :
    after2 (after1 (after0 V)) (Proc.devRef .tc main_v139)
      = Spec.result (V (Proc.devRef .tc main_arg0))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13))
          (V (Proc.devRef .tc main_arg14))
          (V (Proc.devRef .tc main_arg15))
          (V (Proc.devRef .tc main_arg16))
          (V (Proc.devRef .tc main_arg17))
          (V (Proc.devRef .tc main_arg18))
          (V (Proc.devRef .tc main_arg19))
          (V (Proc.devRef .tc main_arg20))
          (V (Proc.devRef .tc main_arg21))
          (V (Proc.devRef .tc main_arg22))
          (V (Proc.devRef .tc main_arg23))
          (V (Proc.devRef .tc main_arg24))
          (V (Proc.devRef .tc main_arg25))
          (V (Proc.devRef .tc main_arg26))
          (V (Proc.devRef .tc main_arg27))
          (V (Proc.devRef .tc main_arg28))
          (V (Proc.devRef .tc main_arg29))
          (V (Proc.devRef .tc main_arg30))
          (V (Proc.devRef .tc main_arg31)) := by
  simp (disch := decide) only [after2_v139, out, h3, after1_v79, after1_v98, after1_v103, h2, pre3, rs3, after1_keep,
    after0_v41, after0_v48, after0_v49, after0_v50, after0_v1, after0_v3, after0_keep]
  rfl

theorem keep_all (V : Vals) (r : Ref sig .tc) (h0 : r ∉ ops0_W) (h1 : r ∉ ops1_W) (h2 : r ∉ ops2_W) :
    after2 (after1 (after0 V)) (Proc.devRef .tc r) = V (Proc.devRef .tc r) :=
  ((after2_keep _ r h2).trans (after1_keep _ r h1)).trans (after0_keep V r h0)

theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v139)
        = Cert.Spec.result (m ((c.tc : Thread nD τ).loc main_arg0))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
            (m ((c.tc : Thread nD τ).loc main_arg20))
            (m ((c.tc : Thread nD τ).loc main_arg21))
            (m ((c.tc : Thread nD τ).loc main_arg22))
            (m ((c.tc : Thread nD τ).loc main_arg23))
            (m ((c.tc : Thread nD τ).loc main_arg24))
            (m ((c.tc : Thread nD τ).loc main_arg25))
            (m ((c.tc : Thread nD τ).loc main_arg26))
            (m ((c.tc : Thread nD τ).loc main_arg27))
            (m ((c.tc : Thread nD τ).loc main_arg28))
            (m ((c.tc : Thread nD τ).loc main_arg29))
            (m ((c.tc : Thread nD τ).loc main_arg30))
            (m ((c.tc : Thread nD τ).loc main_arg31))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun _ h c => ⟨(h c main_v139).trans (result_eq (launchContents m c)),
      (h c main_arg0).trans (keep_all (launchContents m c) main_arg0 (by decide) (by decide) (by decide)),
      (h c main_arg1).trans (keep_all (launchContents m c) main_arg1 (by decide) (by decide) (by decide)),
      (h c main_arg2).trans (keep_all (launchContents m c) main_arg2 (by decide) (by decide) (by decide)),
      (h c main_arg3).trans (keep_all (launchContents m c) main_arg3 (by decide) (by decide) (by decide)),
      (h c main_arg4).trans (keep_all (launchContents m c) main_arg4 (by decide) (by decide) (by decide)),
      (h c main_arg5).trans (keep_all (launchContents m c) main_arg5 (by decide) (by decide) (by decide)),
      (h c main_arg6).trans (keep_all (launchContents m c) main_arg6 (by decide) (by decide) (by decide)),
      (h c main_arg7).trans (keep_all (launchContents m c) main_arg7 (by decide) (by decide) (by decide)),
      (h c main_arg8).trans (keep_all (launchContents m c) main_arg8 (by decide) (by decide) (by decide)),
      (h c main_arg9).trans (keep_all (launchContents m c) main_arg9 (by decide) (by decide) (by decide)),
      (h c main_arg10).trans (keep_all (launchContents m c) main_arg10 (by decide) (by decide) (by decide)),
      (h c main_arg11).trans (keep_all (launchContents m c) main_arg11 (by decide) (by decide) (by decide)),
      (h c main_arg12).trans (keep_all (launchContents m c) main_arg12 (by decide) (by decide) (by decide)),
      (h c main_arg13).trans (keep_all (launchContents m c) main_arg13 (by decide) (by decide) (by decide)),
      (h c main_arg14).trans (keep_all (launchContents m c) main_arg14 (by decide) (by decide) (by decide)),
      (h c main_arg15).trans (keep_all (launchContents m c) main_arg15 (by decide) (by decide) (by decide)),
      (h c main_arg16).trans (keep_all (launchContents m c) main_arg16 (by decide) (by decide) (by decide)),
      (h c main_arg17).trans (keep_all (launchContents m c) main_arg17 (by decide) (by decide) (by decide)),
      (h c main_arg18).trans (keep_all (launchContents m c) main_arg18 (by decide) (by decide) (by decide)),
      (h c main_arg19).trans (keep_all (launchContents m c) main_arg19 (by decide) (by decide) (by decide)),
      (h c main_arg20).trans (keep_all (launchContents m c) main_arg20 (by decide) (by decide) (by decide)),
      (h c main_arg21).trans (keep_all (launchContents m c) main_arg21 (by decide) (by decide) (by decide)),
      (h c main_arg22).trans (keep_all (launchContents m c) main_arg22 (by decide) (by decide) (by decide)),
      (h c main_arg23).trans (keep_all (launchContents m c) main_arg23 (by decide) (by decide) (by decide)),
      (h c main_arg24).trans (keep_all (launchContents m c) main_arg24 (by decide) (by decide) (by decide)),
      (h c main_arg25).trans (keep_all (launchContents m c) main_arg25 (by decide) (by decide) (by decide)),
      (h c main_arg26).trans (keep_all (launchContents m c) main_arg26 (by decide) (by decide) (by decide)),
      (h c main_arg27).trans (keep_all (launchContents m c) main_arg27 (by decide) (by decide) (by decide)),
      (h c main_arg28).trans (keep_all (launchContents m c) main_arg28 (by decide) (by decide) (by decide)),
      (h c main_arg29).trans (keep_all (launchContents m c) main_arg29 (by decide) (by decide) (by decide)),
      (h c main_arg30).trans (keep_all (launchContents m c) main_arg30 (by decide) (by decide) (by decide)),
      (h c main_arg31).trans (keep_all (launchContents m c) main_arg31 (by decide) (by decide) (by decide))⟩)
    (run_ops m ρ)

end Cert.ReferenceIdeal.Hand

end
-- ==== Proof.Val.HostVals.lean ====
import proofs.«416321_j46445776339725_1_alg».proof.Proof.Gen.KernelIdeal.Launch
import proofs.«416321_j46445776339725_1_alg».proof.Proof.Val.Spec
import proofs.«416321_j46445776339725_1_alg».proof.Proof.Val.SpecIdx
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx

def krow0 (ei : IVec S2x3200000 32) : IVec S3200000 32 :=
  shapeCast S3200000 (extractStridedSlice S1x3200000 ![0, 0] ei slices_S2x3200000_S1x3200000_0_0) shapeCasts_S1x3200000_S3200000

def krow1 (ei : IVec S2x3200000 32) : IVec S3200000 32 :=
  shapeCast S3200000 (extractStridedSlice S1x3200000 ![1, 0] ei slices_S2x3200000_S1x3200000_1_0) shapeCasts_S1x3200000_S3200000

def kcol (r : IVec S3200000 32) : IVec S3200000x1 32 :=
  broadcastInDim S3200000x1 ![0] bcast_S3200000_S3200000x1_0 r

def knorm (r : IVec S3200000 32) : IVec S3200000x1 32 :=
  kcol (select (cmpi .slt r (broadcastInDim S3200000 ![] bcast_S_S3200000 (constantI S_ 32 0#32)))
    (addi r (broadcastInDim S3200000 ![] bcast_S_S3200000 (constantI S_ 32 100000#32))) r)

def kgidx (ei : IVec S2x3200000 32) : IVec S3200000x1 32 := knorm (krow0 ei)

def ksidx (ei : IVec S2x3200000 32) : IVec S3200000x1 32 := kcol (krow1 ei)

def kbidx (b : IVec S100000 32) : IVec S100000x1 32 := shapeCast S100000x1 b shapeCasts_S100000_S100000x1

variable (W : Valuation τ sig (Elt Ideal))

theorem hostOps0_v1 : (StableHlo.after hostOps0 W main_v1 : IVec S3200000 32) = krow0 (W main_arg2) := by
  dsimp only [hostOps0]; after_results; rfl

theorem hostOps0_v3 : (StableHlo.after hostOps0 W main_v3 : IVec S3200000 32) = krow1 (W main_arg2) := by
  dsimp only [hostOps0]; after_results; rfl

theorem hostOps3_v40 : (StableHlo.after hostOps3 W main_v40 : FVec Ideal S100000x96 .f32)
    = concatenate S100000x96 1 [⟨S100000x32, W main_v15⟩, ⟨S100000x32, W main_v27⟩, ⟨S100000x32, W main_v39⟩]
        concatenates_S100000x32_S100000x32_S100000x32_S100000x96_d1 := by
  dsimp only [hostOps3]; after_results; rfl

theorem hostOps3_v41 : (StableHlo.after hostOps3 W main_v41 : IVec S100000x1 32) = kbidx (W main_arg3) := by
  dsimp only [hostOps3]; after_results; rfl

theorem hostOps0_v14 : (StableHlo.after hostOps0 W main_v14 : FVec Ideal S100000x32 .f32)
    = Cert.Spec.aggr (W main_arg0) (kgidx (W main_arg2)) (ksidx (W main_arg2)) := by
  dsimp only [hostOps0]; after_results_simp; rfl

theorem hostOps1_v26 : (StableHlo.after hostOps1 W main_v26 : FVec Ideal S100000x32 .f32)
    = Cert.Spec.aggr (W main_v15) (knorm (W main_v1)) (kcol (W main_v3)) := by
  dsimp only [hostOps1]; after_results_simp; rfl

theorem hostOps2_v38 : (StableHlo.after hostOps2 W main_v38 : FVec Ideal S100000x32 .f32)
    = Cert.Spec.aggr (W main_v27) (knorm (W main_v1)) (kcol (W main_v3)) := by
  dsimp only [hostOps2]; after_results_simp; rfl

theorem kgidx_eq (ei : IVec S2x3200000 32) : kgidx ei = Cert.Spec.gidx ei := rfl
theorem ksidx_eq (ei : IVec S2x3200000 32) : ksidx ei = Cert.Spec.sidx ei := rfl
theorem knorm_krow0 (ei : IVec S2x3200000 32) : knorm (krow0 ei) = Cert.Spec.gidx ei := rfl
theorem kcol_krow1 (ei : IVec S2x3200000 32) : kcol (krow1 ei) = Cert.Spec.sidx ei := rfl

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastInDim_a_a1_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x _ _ (fun d => by
    match d with
    | ⟨0, _⟩ =>
      show i.val = if a = 1 then 0 else i.val
      split
      · omega
      · rfl)

theorem kbidx_eq (b : IVec S100000 32) : kbidx b = Cert.Spec.bidx b := by
  funext j
  obtain ⟨i, u, rfl⟩ : ∃ i u, j = ix2 i u := ⟨j 0, j 1, eq_ix2 j⟩
  exact (shapeCast_a_a1_apply b _ i u).trans (broadcastInDim_a_a1_apply b _ i u).symm

end Cert.KernelIdeal.Hand

end
-- ==== Proof.LibRows.lean ====
import Idealize.ShloMosaic.PureOps.Ideal
import Idealize.ShloMosaic.Lib.ValueIdx

noncomputable section

open scoped BigOperators

namespace Cert.LibRows

open Idealize.ShloMosaic Idealize.ShloMosaic.ValueIdx

section RowScatter

abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

end Cert.LibRows

end
-- ==== Proof.Val.SpecPool.lean ====
import proofs.«416321_j46445776339725_1_alg».proof.Proof.Val.Spec
import proofs.«416321_j46445776339725_1_alg».proof.Proof.LibRows
import Idealize.ShloMosaic.Lib.Pipeline.Value
import Idealize.ShloMosaic.Lib.ValueIdx
import Idealize.ShloMosaic.PureOps.Ideal.Laws

noncomputable section

open scoped BigOperators

namespace Cert.Spec

open Idealize.ShloMosaic Idealize.ShloMosaic.ValueIdx Cert.ReferenceIdeal Cert.ReferenceIdeal.Gen

abbrev S100000x96 : Shape := ⟨2, ![100000, 96]⟩

def onehotSum (hc : FVec Ideal S100000x96 .f32) (bi : IVec S100000x1 32) : FVec Ideal S2048x96 .f32 :=
  fun j => ∑ n : Fin 100000, if bi (ix2 n (0 : Fin 1)) = BitVec.ofNat 32 (j 0).val then hc (ix2 n (j 1)) else 0

theorem toInt_eq_iff (b : BitVec 32) (g : Nat) (hg : g < 2048) : b.toInt = (g : Int) ↔ b = BitVec.ofNat 32 g := by
  have e : (BitVec.ofNat 32 g).toInt = (g : Int) := by
    rw [BitVec.toInt_eq_toNat_cond, BitVec.toNat_ofNat]
    have h1 : g % 2 ^ 32 = g := Nat.mod_eq_of_lt (by omega)
    rw [h1, if_pos (by omega)]
  constructor
  · intro h; exact BitVec.eq_of_toInt_eq (h.trans e.symm)
  · rintro rfl; exact e

theorem concat3_cols {α : Type} (R n N : Nat) (x y z : (⟨2, ![R, n]⟩ : Shape).Idx → α)
    (h : Shape.Concatenates [(⟨2, ![R, n]⟩ : Shape), ⟨2, ![R, n]⟩, ⟨2, ![R, n]⟩] (⟨2, ![R, N]⟩ : Shape) 1) (r : Fin R) (i : Fin N)
    (hN : N = n + (n + (n + 0))) :
    concatenate (⟨2, ![R, N]⟩ : Shape) 1 [⟨(⟨2, ![R, n]⟩ : Shape), x⟩, ⟨(⟨2, ![R, n]⟩ : Shape), y⟩, ⟨(⟨2, ![R, n]⟩ : Shape), z⟩] h (ix2 r i)
      = if h1 : i.val < n then x (ix2 r ⟨i.val, h1⟩)
        else if h2 : i.val < 2 * n then y (ix2 r ⟨i.val - n, by omega⟩)
        else z (ix2 r ⟨i.val - 2 * n, by have := i.isLt; omega⟩) := by
  have hb : ∀ (q : Fin n) (b : Fin 2), b.cast rfl ≠ (1 : Fin 2) → ((ix2 r q : (⟨2, ![R, n]⟩ : Shape).Idx) b).val = ((ix2 r i : (⟨2, ![R, N]⟩ : Shape).Idx) (b.cast rfl)).val := by
    intro q b hb
    match b with
    | ⟨0, _⟩ => rfl
    | ⟨1, _⟩ => exact absurd rfl hb
  split
  · rename_i h1
    refine concatenate_apply_piece (t := (⟨2, ![R, N]⟩ : Shape)) (1 : Fin 2) [⟨(⟨2, ![R, n]⟩ : Shape), x⟩, ⟨(⟨2, ![R, n]⟩ : Shape), y⟩, ⟨(⟨2, ![R, n]⟩ : Shape), z⟩] h (ix2 r i)
      0 (by simp) _ x rfl rfl 0 (by simp) (ix2 r ⟨i.val, h1⟩) (hb _) ?_
    show 0 + i.val = i.val
    omega
  · rename_i h1
    split
    · rename_i h2
      refine concatenate_apply_piece (t := (⟨2, ![R, N]⟩ : Shape)) (1 : Fin 2) [⟨(⟨2, ![R, n]⟩ : Shape), x⟩, ⟨(⟨2, ![R, n]⟩ : Shape), y⟩, ⟨(⟨2, ![R, n]⟩ : Shape), z⟩] h (ix2 r i)
        1 (by simp) _ y rfl rfl n (by simp) (ix2 r ⟨i.val - n, by omega⟩) (hb _) ?_
      show n + (i.val - n) = i.val
      omega
    · rename_i h2
      refine concatenate_apply_piece (t := (⟨2, ![R, N]⟩ : Shape)) (1 : Fin 2) [⟨(⟨2, ![R, n]⟩ : Shape), x⟩, ⟨(⟨2, ![R, n]⟩ : Shape), y⟩, ⟨(⟨2, ![R, n]⟩ : Shape), z⟩] h (ix2 r i)
        2 (by simp) _ z rfl rfl (2 * n) (by simp; omega) (ix2 r ⟨i.val - 2 * n, by have := i.isLt; omega⟩) (hb _) ?_
      show 2 * n + (i.val - 2 * n) = i.val
      omega

theorem segsum_apply (h : FVec Ideal S100000x32 .f32) (bi : IVec S100000x1 32) (g : Fin 2048) (q : Fin 32) :
    segsum h bi (ix2 g q) = ∑ n : Fin 100000, if bi (ix2 n (0 : Fin 1)) = BitVec.ofNat 32 g.val then h (ix2 n q) else 0 := by
  unfold segsum
  have e := Cert.LibRows.rowScatterAdd_apply (n := 2048) (e := 100000) (c := 32) (w := 32)
    scatter_S2048x32_S100000x1_S100000x32_1_0_0_1_wf
    (broadcastInDim S2048x32 ![] bcast_S_S2048x32 (constant (F := Ideal) S_ .f32 0x00000000#32)) bi h g q
  refine Eq.trans e ?_
  have hz : (broadcastInDim S2048x32 ![] bcast_S_S2048x32 (constant (F := Ideal) S_ .f32 0x00000000#32)) (ix2 g q) = 0 :=
    Ideal.ofBits_zero_f32
  rw [hz, zero_add]
  refine Finset.sum_congr rfl fun n _ => ?_
  simp only [toInt_eq_iff _ g.val g.isLt]

theorem onehotSum_concat (h1 h2 h3 : FVec Ideal S100000x32 .f32) (bi : IVec S100000x1 32)
    (hcat : Shape.Concatenates [S100000x32, S100000x32, S100000x32] S100000x96 1) :
    onehotSum (concatenate S100000x96 1 [⟨S100000x32, h1⟩, ⟨S100000x32, h2⟩, ⟨S100000x32, h3⟩] hcat) bi = pool h1 h2 h3 bi := by
  funext j
  obtain ⟨g, d, rfl⟩ : ∃ (g : Fin 2048) (d : Fin 96), j = ix2 g d := ⟨j 0, j 1, eq_ix2 j⟩
  unfold pool onehotSum
  rw [concat3_cols 2048 32 96 (segsum h1 bi) (segsum h2 bi) (segsum h3 bi) _ g d rfl]
  have hL : ∀ n : Fin 100000, concatenate S100000x96 1 [⟨S100000x32, h1⟩, ⟨S100000x32, h2⟩, ⟨S100000x32, h3⟩] hcat (ix2 n d) = _ :=
    fun n => concat3_cols 100000 32 96 h1 h2 h3 hcat n d rfl
  show (∑ n : Fin 100000, if bi (ix2 n (0 : Fin 1)) = BitVec.ofNat 32 g.val then
      concatenate S100000x96 1 [⟨S100000x32, h1⟩, ⟨S100000x32, h2⟩, ⟨S100000x32, h3⟩] hcat (ix2 n d) else 0) = _
  simp only [hL]
  split
  · rw [segsum_apply]
  · split
    · rw [segsum_apply]
    · rw [segsum_apply]

end Cert.Spec

end
-- ==== Proof.Val.MlpCommon.lean ====
import proofs.«416321_j46445776339725_1_alg».proof.Proof.Gen.KernelIdeal.Skeleton
import proofs.«416321_j46445776339725_1_alg».proof.Proof.Val.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Hand

open Idealize.ShloMosaic Idealize.ShloMosaic.ValueIdx

def lk (x : EReal) : EReal :=
  Scalar.select (Ideal.cmp .oge x (Ideal.ofBits .f32 0x00000000#32)) x (Ideal.ofBits .f32 0x3C23D70A#32 * x)

theorem lk_ogt (x : EReal) :
    Scalar.select (Ideal.cmp .ogt x (Ideal.ofBits .f32 0x00000000#32)) x (Ideal.ofBits .f32 0x3C23D70A#32 * x) = lk x := by
  unfold lk
  rw [Ideal.ofBits_zero_f32]
  unfold Ideal.cmp Scalar.select
  rcases lt_trichotomy (0 : EReal) x with h | h | h
  · simp [h, h.le]
  · subst h; simp
  · simp [not_lt.mpr h.le, not_le.mpr h]

theorem lhsK_0 (i : Cert.KernelIdeal.S5000x32.Idx) (q : Cert.KernelIdeal.dot_S5000x32_S32x32_S5000x32_1_0_0_1_n_n.contr.Idx) :
    (Cert.KernelIdeal.dot_S5000x32_S32x32_S5000x32_1_0_0_1_n_n.lhsIdx i q 0).val = (i 0).val := by
  unfold DotDims.lhsIdx
  rw [dif_neg (show ¬(0 : Fin Cert.KernelIdeal.S5000x32.rank) ∈ Cert.KernelIdeal.dot_S5000x32_S32x32_S5000x32_1_0_0_1_n_n.lhsBatch by decide), dif_pos (show (0 : Fin Cert.KernelIdeal.S5000x32.rank) ∈ Cert.KernelIdeal.dot_S5000x32_S32x32_S5000x32_1_0_0_1_n_n.lhsNonContracting by decide)]
  rfl

theorem lhsK_1 (i : Cert.KernelIdeal.S5000x32.Idx) (q : Cert.KernelIdeal.dot_S5000x32_S32x32_S5000x32_1_0_0_1_n_n.contr.Idx) :
    (Cert.KernelIdeal.dot_S5000x32_S32x32_S5000x32_1_0_0_1_n_n.lhsIdx i q 1).val = (q ⟨0, by decide⟩).val :=
  Cert.KernelIdeal.dot_S5000x32_S32x32_S5000x32_1_0_0_1_n_n.lhsIdx_val_of_single rfl i q

theorem rhsK_0 (i : Cert.KernelIdeal.S5000x32.Idx) (q : Cert.KernelIdeal.dot_S5000x32_S32x32_S5000x32_1_0_0_1_n_n.contr.Idx) :
    (Cert.KernelIdeal.dot_S5000x32_S32x32_S5000x32_1_0_0_1_n_n.rhsIdx i q 0).val = (q ⟨0, by decide⟩).val :=
  Cert.KernelIdeal.dot_S5000x32_S32x32_S5000x32_1_0_0_1_n_n.rhsIdx_val_of_single rfl i q

theorem rhsK_1 (i : Cert.KernelIdeal.S5000x32.Idx) (q : Cert.KernelIdeal.dot_S5000x32_S32x32_S5000x32_1_0_0_1_n_n.contr.Idx) :
    (Cert.KernelIdeal.dot_S5000x32_S32x32_S5000x32_1_0_0_1_n_n.rhsIdx i q 1).val = (i 1).val := by
  unfold DotDims.rhsIdx
  rw [dif_neg (show ¬(1 : Fin Cert.KernelIdeal.S32x32.rank) ∈ Cert.KernelIdeal.dot_S5000x32_S32x32_S5000x32_1_0_0_1_n_n.rhsBatch by decide), dif_pos (show (1 : Fin Cert.KernelIdeal.S32x32.rank) ∈ Cert.KernelIdeal.dot_S5000x32_S32x32_S5000x32_1_0_0_1_n_n.rhsNonContracting by decide)]
  rfl

theorem sumK {φ₁ φ₂ : FTy} (lhs : FVec Ideal Cert.KernelIdeal.S5000x32 φ₁) (rhs : FVec Ideal Cert.KernelIdeal.S32x32 φ₂) (p : Fin 5000) (q : Fin 32) :
    (∑ k : Cert.KernelIdeal.dot_S5000x32_S32x32_S5000x32_1_0_0_1_n_n.contr.Idx, lhs (Cert.KernelIdeal.dot_S5000x32_S32x32_S5000x32_1_0_0_1_n_n.lhsIdx (ix2 p q) k) * rhs (Cert.KernelIdeal.dot_S5000x32_S32x32_S5000x32_1_0_0_1_n_n.rhsIdx (ix2 p q) k))
      = ∑ k : Fin 32, lhs (ix2 p k) * rhs (ix2 k q) := by
  rw [← Equiv.sum_comp (contrEquiv1 Cert.KernelIdeal.dot_S5000x32_S32x32_S5000x32_1_0_0_1_n_n 32 rfl rfl).symm]
  refine Finset.sum_congr rfl fun k _ => ?_
  have hk := contrEquiv1_symm_val Cert.KernelIdeal.dot_S5000x32_S32x32_S5000x32_1_0_0_1_n_n 32 rfl rfl k
  have el : Cert.KernelIdeal.dot_S5000x32_S32x32_S5000x32_1_0_0_1_n_n.lhsIdx (ix2 p q) ((contrEquiv1 Cert.KernelIdeal.dot_S5000x32_S32x32_S5000x32_1_0_0_1_n_n 32 rfl rfl).symm k) = ix2 p k := funext fun a => Fin.ext (by
    match a with
    | ⟨0, _⟩ => exact lhsK_0 _ _
    | ⟨1, _⟩ => exact (lhsK_1 _ _).trans hk)
  have er : Cert.KernelIdeal.dot_S5000x32_S32x32_S5000x32_1_0_0_1_n_n.rhsIdx (ix2 p q) ((contrEquiv1 Cert.KernelIdeal.dot_S5000x32_S32x32_S5000x32_1_0_0_1_n_n 32 rfl rfl).symm k) = ix2 k q := funext fun a => Fin.ext (by
    match a with
    | ⟨0, _⟩ => exact (rhsK_0 _ _).trans hk
    | ⟨1, _⟩ => exact rhsK_1 _ _)
  rw [el, er]

theorem lhsR_0 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x32_S100000x32_1_0_0_1_n_n.lhsBatch by decide), dif_pos (show (0 : Fin Cert.ReferenceIdeal.S100000x32.rank) ∈ Cert.ReferenceIdeal.dot_S100000x32_S32x32_S100000x32_1_0_0_1_n_n.lhsNonContracting by decide)]
  rfl

theorem lhsR_1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.lhsIdx i q 1).val = (q ⟨0, by decide⟩).val :=
  Cert.ReferenceIdeal.dot_S100000x32_S32x32_S100000x32_1_0_0_1_n_n.lhsIdx_val_of_single rfl i q

theorem rhsR_0 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 0).val = (q ⟨0, by decide⟩).val :=
  Cert.ReferenceIdeal.dot_S100000x32_S32x32_S100000x32_1_0_0_1_n_n.rhsIdx_val_of_single rfl i q

theorem rhsR_1 (i : Cert.ReferenceIdeal.S100000x32.Idx) (q : Cert.ReferenceIdeal.dot_S100000x32_S32x32_S100000x32_1_0_0_1_n_n.contr.Idx) :
    (Cert.ReferenceIdeal.dot_S100000x32_S32x32_S100000x32_1_0_0_1_n_n.rhsIdx i q 1).val = (i 1).val := by
  unfold DotDims.rhsIdx
  rw [dif_neg (show ¬(1 : Fin Cert.KernelIdeal.S32x32.rank) ∈ Cert.ReferenceIdeal.dot_S100000x32_S32x32_S100000x32_1_0_0_1_n_n.rhsBatch by decide), dif_pos (show (1 : Fin Cert.KernelIdeal.S32x32.rank) ∈ Cert.ReferenceIdeal.dot_S100000x32_S32x32_S100000x32_1_0_0_1_n_n.rhsNonContracting by decide)]
  rfl

theorem sumR {φ₁ φ₂ : FTy} (lhs : FVec Ideal Cert.ReferenceIdeal.S100000x32 φ₁) (rhs : FVec Ideal Cert.KernelIdeal.S32x32 φ₂) (p : Fin 100000) (q : Fin 32) :
    (∑ k : Cert.ReferenceIdeal.dot_S100000x32_S32x32_S100000x32_1_0_0_1_n_n.contr.Idx, lhs (Cert.ReferenceIdeal.dot_S100000x32_S32x32_S100000x32_1_0_0_1_n_n.lhsIdx (ix2 p q) k) * rhs (Cert.ReferenceIdeal.dot_S100000x32_S32x32_S100000x32_1_0_0_1_n_n.rhsIdx (ix2 p q) k))
      = ∑ k : Fin 32, lhs (ix2 p k) * rhs (ix2 k q) := by
  rw [← Equiv.sum_comp (contrEquiv1 Cert.ReferenceIdeal.dot_S100000x32_S32x32_S100000x32_1_0_0_1_n_n 32 rfl rfl).symm]
  refine Finset.sum_congr rfl fun k _ => ?_
  have hk := contrEquiv1_symm_val Cert.ReferenceIdeal.dot_S100000x32_S32x32_S100000x32_1_0_0_1_n_n 32 rfl rfl k
  have el : Cert.ReferenceIdeal.dot_S100000x32_S32x32_S100000x32_1_0_0_1_n_n.lhsIdx (ix2 p q) ((contrEquiv1 Cert.ReferenceIdeal.dot_S100000x32_S32x32_S100000x32_1_0_0_1_n_n 32 rfl rfl).symm k) = ix2 p k := funext fun a => Fin.ext (by
    match a with
    | ⟨0, _⟩ => exact lhsR_0 _ _
    | ⟨1, _⟩ => exact (lhsR_1 _ _).trans hk)
  have er : Cert.ReferenceIdeal.dot_S100000x32_S32x32_S100000x32_1_0_0_1_n_n.rhsIdx (ix2 p q) ((contrEquiv1 Cert.ReferenceIdeal.dot_S100000x32_S32x32_S100000x32_1_0_0_1_n_n 32 rfl rfl).symm k) = ix2 k q := funext fun a => Fin.ext (by
    match a with
    | ⟨0, _⟩ => exact (rhsR_0 _ _).trans hk
    | ⟨1, _⟩ => exact rhsR_1 _ _)
  rw [el, er]

def hid (zr : Fin 32 → EReal) (w1 : Vec Ideal Cert.KernelIdeal.S32x32 .f32) (b1 g bt mu v : Vec Ideal Cert.KernelIdeal.S32 .f32)
    (k : Fin 32) : EReal :=
  lk (((((∑ i : Fin 32, zr i * w1 (ix2 k i)) + b1 (ix1 k)) - mu (ix1 k))
        * Ideal.rsqrt (v (ix1 k) + Ideal.ofBits .f32 0x3727C5AC#32)) * g (ix1 k) + bt (ix1 k))

def outv (zr : Fin 32 → EReal) (w1 : Vec Ideal Cert.KernelIdeal.S32x32 .f32) (b1 g bt mu v : Vec Ideal Cert.KernelIdeal.S32 .f32)
    (w2 : Vec Ideal Cert.KernelIdeal.S32x32 .f32) (b2 : Vec Ideal Cert.KernelIdeal.S32 .f32) (j : Fin 32) : EReal :=
  lk ((∑ k : Fin 32, hid zr w1 b1 g bt mu v k * w2 (ix2 j k)) + b2 (ix1 j))

section KernelShared
open Cert.KernelIdeal Cert.KernelIdeal.Gen

theorem rsqrt_at {s : Shape} {φ : FTy} (x : FVec Ideal s φ) (i : s.Idx) : rsqrt x i = Ideal.rsqrt (x i) := rfl

theorem trK (x : Vec Ideal S32x32 .f32) (a b : Fin 32) :
    (transpose S32x32 [1, 0] (truncf (F := Ideal) FTy.bf16 x bitsLt_bf16_f32) transposes_S32x32_p1_0_S32x32 (ix2 a b) : EReal)
      = (x (ix2 b a) : EReal) :=
  (transpose_ix2_apply (truncf (F := Ideal) FTy.bf16 x bitsLt_bf16_f32) transposes_S32x32_p1_0_S32x32 a b).trans (truncf_apply _ _ _)

end KernelShared

section Ref
open Cert.ReferenceIdeal Cert.ReferenceIdeal.Gen

theorem row32_apply (b : FVec Ideal S32 .f32) (r : Fin 100000) (j : Fin 32) : Cert.Spec.row32 b (ix2 r j) = b (ix1 j) := by
  unfold Cert.Spec.row32
  refine (broadcastInDim_oneRow_apply bcast_S1x32_S100000x32_0_1 _ r j).trans ?_
  refine broadcastInDim_apply ![1] bcast_S32_S1x32_1 b (ix2 (0 : Fin 1) j) (ix1 j) fun a => ?_
  match a with
  | ⟨0, _⟩ => rfl

theorem leaky_apply (x : FVec Ideal S100000x32 .f32) (r : Fin 100000) (j : Fin 32) :
    Cert.Spec.leaky x (ix2 r j) = lk (x (ix2 r j)) := by
  unfold Cert.Spec.leaky
  rw [broadcastInDim_constant, broadcastInDim_constant]
  rfl

theorem trR (x : FVec Ideal S32x32 .f32) (a b : Fin 32) :
    transpose S32x32 [1, 0] x transposes_S32x32_S32x32_1_0 (ix2 a b) = x (ix2 b a) :=
  transpose_ix2_apply x transposes_S32x32_S32x32_1_0 a b

theorem dotR_apply (lhs : FVec Ideal S100000x32 .f32) (rhs : FVec Ideal S32x32 .f32) (r : Fin 100000) (j : Fin 32) :
    Host.dotGeneral dot_S100000x32_S32x32_S100000x32_1_0_0_1_n_n none lhs rhs (ix2 r j)
      = ∑ k : Fin 32, lhs (ix2 r k) * rhs (ix2 k j) := by
  simp only [Host.dotGeneral]
  rw [Ideal.dotGeneral_apply, sumR]

theorem hostRsqrt_at (x : FVec Ideal S32 .f32) (i : S32.Idx) : Host.rsqrt x i = Ideal.rsqrt (x i) := rfl

theorem mlp_apply (z : FVec Ideal S100000x32 .f32) (w1 : FVec Ideal S32x32 .f32) (b1 g bt mu v : FVec Ideal S32 .f32)
    (w2 : FVec Ideal S32x32 .f32) (b2 : FVec Ideal S32 .f32) (r : Fin 100000) (j : Fin 32) :
    Cert.Spec.mlp z w1 b1 g bt mu v w2 b2 (ix2 r j) = outv (fun i => z (ix2 r i)) w1 b1 g bt mu v w2 b2 j := by
  unfold Cert.Spec.mlp
  rw [leaky_apply, addf_apply, dotR_apply, row32_apply]
  unfold outv
  refine congrArg (fun s => lk (s + b2 (ix1 j))) (Finset.sum_congr rfl fun k _ => ?_)
  rw [trR, leaky_apply]
  simp only [addf_apply, mulf_apply, subf_apply, dotR_apply, row32_apply, trR, hostRsqrt_at, broadcastInDim_constant, broadcast_apply]
  have eS : (∑ i : Fin 32, z (ix2 r i) * transpose S32x32 [1, 0] w1 transposes_S32x32_S32x32_1_0 (ix2 i k))
      = ∑ i : Fin 32, z (ix2 r i) * w1 (ix2 k i) :=
    Finset.sum_congr rfl fun i _ => by rw [trR]
  rw [eS]
  rfl

end Ref

end Cert.KernelIdeal.Hand
end
-- ==== Proof.Val.MlpPoint0.lean ====
import proofs.«416321_j46445776339725_1_alg».proof.Proof.Val.MlpCommon

noncomputable section

namespace Cert.KernelIdeal.Hand

open Idealize.ShloMosaic Idealize.ShloMosaic.ValueIdx

section Kernel
open Cert.KernelIdeal Cert.KernelIdeal.Gen

theorem pay2_apply0 (x0 : Vec Ideal S5000x32 .f32) (x1 : Vec Ideal S32x32 .f32) (x2 x5 x6 x3 x4 : Vec Ideal S32 .f32)
    (x7 : Vec Ideal S32x32 .f32) (p : Fin 5000) (q : Fin 32) :
    k0_pay2 (F := Ideal) x0 x1 x2 x5 x6 x3 x4 x7 (ix2 p q)
      = ∑ k : Fin 32, hid (fun i => x0 (ix2 p i)) x1 x2 x3 x4 x5 x6 k * x7 (ix2 q k) := by
  unfold k0_pay2
  dsimp only
  simp only [matmul]
  rw [Ideal.matmul_constant_zero_apply, sumK]
  refine Finset.sum_congr rfl fun k _ => ?_
  simp only [truncf_apply, select_apply, cmpf_apply, mulf_apply, addf_apply, subf_apply, broadcast_apply, trK,
    broadcastTo_1b_ab_apply, shapeCast_a_1a_apply, shapeCast_self, Ideal.matmul_constant_zero_apply, sumK, rsqrt_at]
  have eS : (∑ i : Fin 32, x0 (ix2 p i) * (transpose S32x32 [1, 0] (truncf (F := Ideal) FTy.bf16 x1 bitsLt_bf16_f32) transposes_S32x32_p1_0_S32x32 (ix2 i k) : EReal))
      = ∑ i : Fin 32, x0 (ix2 p i) * x1 (ix2 k i) :=
    Finset.sum_congr rfl fun i _ => by rw [trK x1 i k]
  rw [eS, trK x7 k q]
  unfold hid
  rw [← lk_ogt]
  rfl

theorem pay1_apply0 (y : FVec Ideal S5000x32 .f32) (x8 : Vec Ideal S32 .f32) (p : Fin 5000) (q : Fin 32) :
    k0_pay1 (F := Ideal) y (k0_pay3 x8) (ix2 p q) = lk (y (ix2 p q) + x8 (ix1 q)) := by
  unfold k0_pay1 k0_pay3
  dsimp only
  simp only [select_apply, cmpf_apply, mulf_apply, addf_apply, broadcast_apply, broadcastTo_1b_ab_apply, shapeCast_a_1a_apply]
  rw [← lk_ogt]
  rfl

theorem payK_apply0 (x0 : Vec Ideal S5000x32 .f32) (x1 : Vec Ideal S32x32 .f32) (x2 x3 x4 x5 x6 : Vec Ideal S32 .f32)
    (x7 : Vec Ideal S32x32 .f32) (x8 : Vec Ideal S32 .f32) (p : Fin 5000) (q : Fin 32) :
    k0_pay1 (F := Ideal) (k0_pay2 x0 x1 x2 x5 x6 x3 x4 x7) (k0_pay3 x8) (ix2 p q)
      = outv (fun i => x0 (ix2 p i)) x1 x2 x3 x4 x5 x6 x7 x8 q := by
  rw [pay1_apply0, pay2_apply0]
  rfl

end Kernel

section Point
open Cert.KernelIdeal Cert.KernelIdeal.Gen

theorem mlp_point0 (t : ℕ) (ht : t < 20)
    (x0 : Vec Ideal S5000x32 .f32) (x1 : Vec Ideal S32x32 .f32) (x2 x3 x4 x5 x6 : Vec Ideal S32 .f32)
    (x7 : Vec Ideal S32x32 .f32) (x8 : Vec Ideal S32 .f32)
    (z : FVec Ideal S100000x32 .f32) (w1 : FVec Ideal S32x32 .f32) (b1 g bt mu v : FVec Ideal S32 .f32)
    (w2 : FVec Ideal S32x32 .f32) (b2 : FVec Ideal S32 .f32)
    (h0 : ∀ (p : Fin 5000) (q : Fin 32), x0 (ix2 p q) = z (ix2 (⟨5000 * t + p.val, by omega⟩ : Fin 100000) q))
    (h1 : x1 = w1) (h2 : x2 = b1) (h3 : x3 = g) (h4 : x4 = bt) (h5 : x5 = mu) (h6 : x6 = v) (h7 : x7 = w2) (h8 : x8 = b2)
    (p : Fin 5000) (q : Fin 32) :
    k0_pay1 (k0_pay2 x0 x1 x2 x5 x6 x3 x4 x7) (k0_pay3 x8) (ix2 p q)
      = Cert.Spec.mlp z w1 b1 g bt mu v w2 b2 (ix2 (⟨5000 * t + p.val, by omega⟩ : Fin 100000) q) := by
  subst h1 h2 h3 h4 h5 h6 h7 h8
  have hrow : (fun i : Fin 32 => (x0 (ix2 p i) : EReal)) = fun i => z (ix2 (⟨5000 * t + p.val, by omega⟩ : Fin 100000) i) :=
    funext fun i => h0 p i
  refine (payK_apply0 x0 x1 x2 x3 x4 x5 x6 x7 x8 p q).trans ?_
  rw [hrow]
  exact (mlp_apply z x1 x2 x3 x4 x5 x6 x7 x8 ⟨5000 * t + p.val, by omega⟩ q).symm

end Point

end Cert.KernelIdeal.Hand
end
-- ==== Proof.Val.MlpVal0.lean ====
import proofs.«416321_j46445776339725_1_alg».proof.Proof.KI.Mlp0
import proofs.«416321_j46445776339725_1_alg».proof.Proof.Val.Spec
import proofs.«416321_j46445776339725_1_alg».proof.Proof.Val.MlpPoint0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

theorem lt_points0 (t : Fin cfg0.N) : t.val < 20 :=
  Nat.lt_of_lt_of_eq t.isLt (show cfg0.N = 20 from N_0)

theorem idx0_0 : ∀ t : Fin cfg0.N, win0_0.index t (0 : Fin 2) = t.val ∧ win0_0.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 1) = 0 :=
  (by decide +kernel : ∀ t : Fin grid0.N, _)
theorem idx0_3 : ∀ t : Fin cfg0.N, win0_3.index t (0 : Fin 1) = 0 :=
  (by decide +kernel : ∀ t : Fin grid0.N, _)
theorem idx0_4 : ∀ t : Fin cfg0.N, win0_4.index t (0 : Fin 1) = 0 :=
  (by decide +kernel : ∀ t : Fin grid0.N, _)
theorem idx0_5 : ∀ t : Fin cfg0.N, win0_5.index t (0 : Fin 1) = 0 :=
  (by decide +kernel : ∀ t : Fin grid0.N, _)
theorem idx0_6 : ∀ t : Fin cfg0.N, win0_6.index t (0 : Fin 1) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 1) = 0 :=
  (by decide +kernel : ∀ t : Fin grid0.N, _)

theorem iblk0_0_apply (c : Dev nD) (t : Fin cfg0.N) (p : Fin 5000) (q : Fin 32) :
    (iblk0 V c 0 t : Vec Ideal S5000x32 .f32) (ix2 p q)
      = (V c main_v14 : S100000x32.Idx → Elt Ideal .f32) (ix2 (⟨5000 * t.val + p.val, by have := lt_points0 t; omega⟩ : Fin 100000) q) := by
  unfold iblk0
  rw [View.read_apply]
  show V c main_v14 _ = V c main_v14 _
  congr 1
  funext a
  apply Fin.ext
  match a with
  | ⟨0, _⟩ => show win0_0.index t (0 : Fin 2) * 5000 + 1 * p.val = 5000 * t.val + p.val; rw [(idx0_0 t).1]; omega
  | ⟨1, _⟩ => show win0_0.index t (1 : Fin 2) * 32 + 1 * q.val = q.val; rw [(idx0_0 t).2]; omega

theorem iblk0_1_eq (c : Dev nD) (t : Fin cfg0.N) : (iblk0 V c 1 t : Vec Ideal S32x32 .f32) = (V c main_arg4 : S32x32.Idx → Elt Ideal .f32) := by
  funext y
  unfold iblk0
  rw [View.read_apply]
  show V c main_arg4 _ = V c main_arg4 _
  congr 1
  funext a
  apply Fin.ext
  match a with
  | ⟨0, _⟩ => show win0_1.index t (0 : Fin 2) * 32 + 1 * (y 0).val = (y 0).val; rw [(idx0_1 t).1]; omega
  | ⟨1, _⟩ => show win0_1.index t (1 : Fin 2) * 32 + 1 * (y 1).val = (y 1).val; rw [(idx0_1 t).2]; omega
theorem iblk0_2_eq (c : Dev nD) (t : Fin cfg0.N) : (iblk0 V c 2 t : Vec Ideal S32 .f32) = (V c main_arg5 : S32.Idx → Elt Ideal .f32) := by
  funext y
  unfold iblk0
  rw [View.read_apply]
  show V c main_arg5 _ = V c main_arg5 _
  congr 1
  funext a
  apply Fin.ext
  match a with
  | ⟨0, _⟩ => show win0_2.index t (0 : Fin 1) * 32 + 1 * (y 0).val = (y 0).val; rw [idx0_2 t]; omega
theorem iblk0_3_eq (c : Dev nD) (t : Fin cfg0.N) : (iblk0 V c 3 t : Vec Ideal S32 .f32) = (V c main_arg6 : S32.Idx → Elt Ideal .f32) := by
  funext y
  unfold iblk0
  rw [View.read_apply]
  show V c main_arg6 _ = V c main_arg6 _
  congr 1
  funext a
  apply Fin.ext
  match a with
  | ⟨0, _⟩ => show win0_3.index t (0 : Fin 1) * 32 + 1 * (y 0).val = (y 0).val; rw [idx0_3 t]; omega
theorem iblk0_4_eq (c : Dev nD) (t : Fin cfg0.N) : (iblk0 V c 4 t : Vec Ideal S32 .f32) = (V c main_arg7 : S32.Idx → Elt Ideal .f32) := by
  funext y
  unfold iblk0
  rw [View.read_apply]
  show V c main_arg7 _ = V c main_arg7 _
  congr 1
  funext a
  apply Fin.ext
  match a with
  | ⟨0, _⟩ => show win0_4.index t (0 : Fin 1) * 32 + 1 * (y 0).val = (y 0).val; rw [idx0_4 t]; omega
theorem iblk0_5_eq (c : Dev nD) (t : Fin cfg0.N) : (iblk0 V c 5 t : Vec Ideal S32 .f32) = (V c main_arg8 : S32.Idx → Elt Ideal .f32) := by
  funext y
  unfold iblk0
  rw [View.read_apply]
  show V c main_arg8 _ = V c main_arg8 _
  congr 1
  funext a
  apply Fin.ext
  match a with
  | ⟨0, _⟩ => show win0_5.index t (0 : Fin 1) * 32 + 1 * (y 0).val = (y 0).val; rw [idx0_5 t]; omega
theorem iblk0_6_eq (c : Dev nD) (t : Fin cfg0.N) : (iblk0 V c 6 t : Vec Ideal S32 .f32) = (V c main_arg9 : S32.Idx → Elt Ideal .f32) := by
  funext y
  unfold iblk0
  rw [View.read_apply]
  show V c main_arg9 _ = V c main_arg9 _
  congr 1
  funext a
  apply Fin.ext
  match a with
  | ⟨0, _⟩ => show win0_6.index t (0 : Fin 1) * 32 + 1 * (y 0).val = (y 0).val; rw [idx0_6 t]; omega
theorem iblk0_7_eq (c : Dev nD) (t : Fin cfg0.N) : (iblk0 V c 7 t : Vec Ideal S32x32 .f32) = (V c main_arg10 : S32x32.Idx → Elt Ideal .f32) := by
  funext y
  unfold iblk0
  rw [View.read_apply]
  show V c main_arg10 _ = V c main_arg10 _
  congr 1
  funext a
  apply Fin.ext
  match a with
  | ⟨0, _⟩ => show win0_7.index t (0 : Fin 2) * 32 + 1 * (y 0).val = (y 0).val; rw [(idx0_7 t).1]; omega
  | ⟨1, _⟩ => show win0_7.index t (1 : Fin 2) * 32 + 1 * (y 1).val = (y 1).val; rw [(idx0_7 t).2]; omega
theorem iblk0_8_eq (c : Dev nD) (t : Fin cfg0.N) : (iblk0 V c 8 t : Vec Ideal S32 .f32) = (V c main_arg11 : S32.Idx → Elt Ideal .f32) := by
  funext y
  unfold iblk0
  rw [View.read_apply]
  show V c main_arg11 _ = V c main_arg11 _
  congr 1
  funext a
  apply Fin.ext
  match a with
  | ⟨0, _⟩ => show win0_8.index t (0 : Fin 1) * 32 + 1 * (y 0).val = (y 0).val; rw [idx0_8 t]; omega

theorem oblk0_emb (t : Fin cfg0.N) (p : Fin 5000) (q : Fin 32) :
    ((cfg0.win 9).blk t).view.emb (ix2 p q) = (ix2 (⟨5000 * t.val + p.val, by have := lt_points0 t; omega⟩ : Fin 100000) q : S100000x32.Idx) := by
  funext a
  apply Fin.ext
  match a with
  | ⟨0, _⟩ => show win0_9.index t (0 : Fin 2) * 5000 + 1 * p.val = 5000 * t.val + p.val; rw [(idx0_9 t).1]; omega
  | ⟨1, _⟩ => show win0_9.index t (1 : Fin 2) * 32 + 1 * q.val = q.val; rw [(idx0_9 t).2]; omega

theorem flushed0_eq (c : Dev nD) (t : Fin cfg0.N) :
    (dat0 V c).flushed 9 t = ((cfg0.win 9).blk t).view.read (Elt Ideal) (Cert.Spec.mlp (V c main_v14) (V c main_arg4) (V c main_arg5) (V c main_arg6) (V c main_arg7) (V c main_arg8) (V c main_arg9) (V c main_arg10) (V c main_arg11)) := by
  show (cfg0.win 9).cut (grid0.coords t) ((dat0 V c).after 9 t) = _
  rw [after0_9]
  unfold out0_9
  rw [View.canon_unit_zero zero2]
  simp only [View.ld_unit_zero (S := S5000x32) zero2, View.ld_unit_zero (S := S32x32) zero2, View.ld_unit_zero (S := S32) zero1]
  funext j
  obtain ⟨p, q, rfl⟩ : ∃ (p : Fin 5000) (q : Fin 32), j = ix2 p q := ⟨j 0, j 1, eq_ix2 j⟩
  rw [View.read_apply, oblk0_emb]
  exact mlp_point0 t.val (lt_points0 t) _ _ _ _ _ _ _ _ _ _ _ _ _ _ _ _ _ _ (iblk0_0_apply V c t)
    (iblk0_1_eq V c t) (iblk0_2_eq V c t) (iblk0_3_eq V c t) (iblk0_4_eq V c t) (iblk0_5_eq V c t) (iblk0_6_eq V c t)
    (iblk0_7_eq V c t) (iblk0_8_eq V c t) p q

theorem mem_oblk0 (t : Fin cfg0.N) (i : S100000x32.Idx) :
    i ∈ ((cfg0.win 9).blk t).view.set ↔ ∀ a : Fin 2, win0_9.index t a * S5000x32.size a ≤ (i a).val ∧ (i a).val < win0_9.index t a * S5000x32.size a + S5000x32.size a := by
  show i ∈ ((View.whole main_v15).slice (win0_9.rect t)).set ↔ _
  rw [View.set_slice_whole, Rect.mem_set_unit]
  exact Iff.rfl

theorem cover0 (i : S100000x32.Idx) : ∃ t : Fin cfg0.N, (cfg0.win 9).flush t = true ∧ i ∈ ((cfg0.win 9).blk t).view.set := by
  have hi0 : (i 0).val < 100000 := (i 0).isLt
  have hi1 : (i 1).val < 32 := (i 1).isLt
  have hN : cfg0.N = 20 := N_0
  refine ⟨⟨(i 0).val / 5000, by rw [hN]; omega⟩, flush0_9 _, ?_⟩
  rw [mem_oblk0]
  intro a
  match a with
  | ⟨0, _⟩ => show win0_9.index _ (0 : Fin 2) * 5000 ≤ (i 0).val ∧ (i 0).val < win0_9.index _ (0 : Fin 2) * 5000 + 5000; rw [(idx0_9 _).1]; show (i 0).val / 5000 * 5000 ≤ (i 0).val ∧ (i 0).val < (i 0).val / 5000 * 5000 + 5000; omega
  | ⟨1, _⟩ => show win0_9.index _ (1 : Fin 2) * 32 ≤ (i 1).val ∧ (i 1).val < win0_9.index _ (1 : Fin 2) * 32 + 32; rw [(idx0_9 _).2]; omega

theorem final0 (c : Dev nD) : (dat0 V c).arrAt 9 cfg0.N = (Cert.Spec.mlp (V c main_v14) (V c main_arg4) (V c main_arg5) (V c main_arg6) (V c main_arg7) (V c main_arg8) (V c main_arg9) (V c main_arg10) (V c main_arg11)) :=
  (dat0 V c).arrAt_eq_of_cover 9 (Cert.Spec.mlp (V c main_v14) (V c main_arg4) (V c main_arg5) (V c main_arg6) (V c main_arg7) (V c main_arg8) (V c main_arg9) (V c main_arg10) (V c main_arg11)) (fun t _ => flushed0_eq V c t) cover0

end Cert.KernelIdeal.Hand

end
-- ==== Proof.Val.MlpVal1.lean ====
import proofs.«416321_j46445776339725_1_alg».proof.Proof.KI.Mlp1
import proofs.«416321_j46445776339725_1_alg».proof.Proof.Val.Spec
import proofs.«416321_j46445776339725_1_alg».proof.Proof.Val.MlpPoint0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

theorem lt_points1 (t : Fin cfg1.N) : t.val < 20 :=
  Nat.lt_of_lt_of_eq t.isLt (show cfg1.N = 20 from N_1)

theorem idx1_0 : ∀ t : Fin cfg1.N, win1_0.index t (0 : Fin 2) = t.val ∧ win1_0.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 1) = 0 :=
  (by decide +kernel : ∀ t : Fin grid1.N, _)
theorem idx1_3 : ∀ t : Fin cfg1.N, win1_3.index t (0 : Fin 1) = 0 :=
  (by decide +kernel : ∀ t : Fin grid1.N, _)
theorem idx1_4 : ∀ t : Fin cfg1.N, win1_4.index t (0 : Fin 1) = 0 :=
  (by decide +kernel : ∀ t : Fin grid1.N, _)
theorem idx1_5 : ∀ t : Fin cfg1.N, win1_5.index t (0 : Fin 1) = 0 :=
  (by decide +kernel : ∀ t : Fin grid1.N, _)
theorem idx1_6 : ∀ t : Fin cfg1.N, win1_6.index t (0 : Fin 1) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 1) = 0 :=
  (by decide +kernel : ∀ t : Fin grid1.N, _)

theorem iblk1_0_apply (c : Dev nD) (t : Fin cfg1.N) (p : Fin 5000) (q : Fin 32) :
    (iblk1 V c 0 t : Vec Ideal S5000x32 .f32) (ix2 p q)
      = (V c main_v26 : S100000x32.Idx → Elt Ideal .f32) (ix2 (⟨5000 * t.val + p.val, by have := lt_points1 t; omega⟩ : Fin 100000) q) := by
  unfold iblk1
  rw [View.read_apply]
  show V c main_v26 _ = V c main_v26 _
  congr 1
  funext a
  apply Fin.ext
  match a with
  | ⟨0, _⟩ => show win1_0.index t (0 : Fin 2) * 5000 + 1 * p.val = 5000 * t.val + p.val; rw [(idx1_0 t).1]; omega
  | ⟨1, _⟩ => show win1_0.index t (1 : Fin 2) * 32 + 1 * q.val = q.val; rw [(idx1_0 t).2]; omega

theorem iblk1_1_eq (c : Dev nD) (t : Fin cfg1.N) : (iblk1 V c 1 t : Vec Ideal S32x32 .f32) = (V c main_arg12 : S32x32.Idx → Elt Ideal .f32) := by
  funext y
  unfold iblk1
  rw [View.read_apply]
  show V c main_arg12 _ = V c main_arg12 _
  congr 1
  funext a
  apply Fin.ext
  match a with
  | ⟨0, _⟩ => show win1_1.index t (0 : Fin 2) * 32 + 1 * (y 0).val = (y 0).val; rw [(idx1_1 t).1]; omega
  | ⟨1, _⟩ => show win1_1.index t (1 : Fin 2) * 32 + 1 * (y 1).val = (y 1).val; rw [(idx1_1 t).2]; omega
theorem iblk1_2_eq (c : Dev nD) (t : Fin cfg1.N) : (iblk1 V c 2 t : Vec Ideal S32 .f32) = (V c main_arg13 : S32.Idx → Elt Ideal .f32) := by
  funext y
  unfold iblk1
  rw [View.read_apply]
  show V c main_arg13 _ = V c main_arg13 _
  congr 1
  funext a
  apply Fin.ext
  match a with
  | ⟨0, _⟩ => show win1_2.index t (0 : Fin 1) * 32 + 1 * (y 0).val = (y 0).val; rw [idx1_2 t]; omega
theorem iblk1_3_eq (c : Dev nD) (t : Fin cfg1.N) : (iblk1 V c 3 t : Vec Ideal S32 .f32) = (V c main_arg14 : S32.Idx → Elt Ideal .f32) := by
  funext y
  unfold iblk1
  rw [View.read_apply]
  show V c main_arg14 _ = V c main_arg14 _
  congr 1
  funext a
  apply Fin.ext
  match a with
  | ⟨0, _⟩ => show win1_3.index t (0 : Fin 1) * 32 + 1 * (y 0).val = (y 0).val; rw [idx1_3 t]; omega
theorem iblk1_4_eq (c : Dev nD) (t : Fin cfg1.N) : (iblk1 V c 4 t : Vec Ideal S32 .f32) = (V c main_arg15 : S32.Idx → Elt Ideal .f32) := by
  funext y
  unfold iblk1
  rw [View.read_apply]
  show V c main_arg15 _ = V c main_arg15 _
  congr 1
  funext a
  apply Fin.ext
  match a with
  | ⟨0, _⟩ => show win1_4.index t (0 : Fin 1) * 32 + 1 * (y 0).val = (y 0).val; rw [idx1_4 t]; omega
theorem iblk1_5_eq (c : Dev nD) (t : Fin cfg1.N) : (iblk1 V c 5 t : Vec Ideal S32 .f32) = (V c main_arg16 : S32.Idx → Elt Ideal .f32) := by
  funext y
  unfold iblk1
  rw [View.read_apply]
  show V c main_arg16 _ = V c main_arg16 _
  congr 1
  funext a
  apply Fin.ext
  match a with
  | ⟨0, _⟩ => show win1_5.index t (0 : Fin 1) * 32 + 1 * (y 0).val = (y 0).val; rw [idx1_5 t]; omega
theorem iblk1_6_eq (c : Dev nD) (t : Fin cfg1.N) : (iblk1 V c 6 t : Vec Ideal S32 .f32) = (V c main_arg17 : S32.Idx → Elt Ideal .f32) := by
  funext y
  unfold iblk1
  rw [View.read_apply]
  show V c main_arg17 _ = V c main_arg17 _
  congr 1
  funext a
  apply Fin.ext
  match a with
  | ⟨0, _⟩ => show win1_6.index t (0 : Fin 1) * 32 + 1 * (y 0).val = (y 0).val; rw [idx1_6 t]; omega
theorem iblk1_7_eq (c : Dev nD) (t : Fin cfg1.N) : (iblk1 V c 7 t : Vec Ideal S32x32 .f32) = (V c main_arg18 : S32x32.Idx → Elt Ideal .f32) := by
  funext y
  unfold iblk1
  rw [View.read_apply]
  show V c main_arg18 _ = V c main_arg18 _
  congr 1
  funext a
  apply Fin.ext
  match a with
  | ⟨0, _⟩ => show win1_7.index t (0 : Fin 2) * 32 + 1 * (y 0).val = (y 0).val; rw [(idx1_7 t).1]; omega
  | ⟨1, _⟩ => show win1_7.index t (1 : Fin 2) * 32 + 1 * (y 1).val = (y 1).val; rw [(idx1_7 t).2]; omega
theorem iblk1_8_eq (c : Dev nD) (t : Fin cfg1.N) : (iblk1 V c 8 t : Vec Ideal S32 .f32) = (V c main_arg19 : S32.Idx → Elt Ideal .f32) := by
  funext y
  unfold iblk1
  rw [View.read_apply]
  show V c main_arg19 _ = V c main_arg19 _
  congr 1
  funext a
  apply Fin.ext
  match a with
  | ⟨0, _⟩ => show win1_8.index t (0 : Fin 1) * 32 + 1 * (y 0).val = (y 0).val; rw [idx1_8 t]; omega

theorem oblk1_emb (t : Fin cfg1.N) (p : Fin 5000) (q : Fin 32) :
    ((cfg1.win 9).blk t).view.emb (ix2 p q) = (ix2 (⟨5000 * t.val + p.val, by have := lt_points1 t; omega⟩ : Fin 100000) q : S100000x32.Idx) := by
  funext a
  apply Fin.ext
  match a with
  | ⟨0, _⟩ => show win1_9.index t (0 : Fin 2) * 5000 + 1 * p.val = 5000 * t.val + p.val; rw [(idx1_9 t).1]; omega
  | ⟨1, _⟩ => show win1_9.index t (1 : Fin 2) * 32 + 1 * q.val = q.val; rw [(idx1_9 t).2]; omega

theorem flushed1_eq (c : Dev nD) (t : Fin cfg1.N) :
    (dat1 V c).flushed 9 t = ((cfg1.win 9).blk t).view.read (Elt Ideal) (Cert.Spec.mlp (V c main_v26) (V c main_arg12) (V c main_arg13) (V c main_arg14) (V c main_arg15) (V c main_arg16) (V c main_arg17) (V c main_arg18) (V c main_arg19)) := by
  show (cfg1.win 9).cut (grid1.coords t) ((dat1 V c).after 9 t) = _
  rw [after1_9]
  unfold out1_9
  rw [View.canon_unit_zero zero2]
  simp only [View.ld_unit_zero (S := S5000x32) zero2, View.ld_unit_zero (S := S32x32) zero2, View.ld_unit_zero (S := S32) zero1]
  funext j
  obtain ⟨p, q, rfl⟩ : ∃ (p : Fin 5000) (q : Fin 32), j = ix2 p q := ⟨j 0, j 1, eq_ix2 j⟩
  rw [View.read_apply, oblk1_emb]
  exact mlp_point0 t.val (lt_points1 t) _ _ _ _ _ _ _ _ _ _ _ _ _ _ _ _ _ _ (iblk1_0_apply V c t)
    (iblk1_1_eq V c t) (iblk1_2_eq V c t) (iblk1_3_eq V c t) (iblk1_4_eq V c t) (iblk1_5_eq V c t) (iblk1_6_eq V c t)
    (iblk1_7_eq V c t) (iblk1_8_eq V c t) p q

theorem mem_oblk1 (t : Fin cfg1.N) (i : S100000x32.Idx) :
    i ∈ ((cfg1.win 9).blk t).view.set ↔ ∀ a : Fin 2, win1_9.index t a * S5000x32.size a ≤ (i a).val ∧ (i a).val < win1_9.index t a * S5000x32.size a + S5000x32.size a := by
  show i ∈ ((View.whole main_v27).slice (win1_9.rect t)).set ↔ _
  rw [View.set_slice_whole, Rect.mem_set_unit]
  exact Iff.rfl

theorem cover1 (i : S100000x32.Idx) : ∃ t : Fin cfg1.N, (cfg1.win 9).flush t = true ∧ i ∈ ((cfg1.win 9).blk t).view.set := by
  have hi0 : (i 0).val < 100000 := (i 0).isLt
  have hi1 : (i 1).val < 32 := (i 1).isLt
  have hN : cfg1.N = 20 := N_1
  refine ⟨⟨(i 0).val / 5000, by rw [hN]; omega⟩, flush1_9 _, ?_⟩
  rw [mem_oblk1]
  intro a
  match a with
  | ⟨0, _⟩ => show win1_9.index _ (0 : Fin 2) * 5000 ≤ (i 0).val ∧ (i 0).val < win1_9.index _ (0 : Fin 2) * 5000 + 5000; rw [(idx1_9 _).1]; show (i 0).val / 5000 * 5000 ≤ (i 0).val ∧ (i 0).val < (i 0).val / 5000 * 5000 + 5000; omega
  | ⟨1, _⟩ => show win1_9.index _ (1 : Fin 2) * 32 ≤ (i 1).val ∧ (i 1).val < win1_9.index _ (1 : Fin 2) * 32 + 32; rw [(idx1_9 _).2]; omega

theorem final1 (c : Dev nD) : (dat1 V c).arrAt 9 cfg1.N = (Cert.Spec.mlp (V c main_v26) (V c main_arg12) (V c main_arg13) (V c main_arg14) (V c main_arg15) (V c main_arg16) (V c main_arg17) (V c main_arg18) (V c main_arg19)) :=
  (dat1 V c).arrAt_eq_of_cover 9 (Cert.Spec.mlp (V c main_v26) (V c main_arg12) (V c main_arg13) (V c main_arg14) (V c main_arg15) (V c main_arg16) (V c main_arg17) (V c main_arg18) (V c main_arg19)) (fun t _ => flushed1_eq V c t) cover1

end Cert.KernelIdeal.Hand

end
-- ==== Proof.Val.MlpVal2.lean ====
import proofs.«416321_j46445776339725_1_alg».proof.Proof.KI.Mlp2
import proofs.«416321_j46445776339725_1_alg».proof.Proof.Val.Spec
import proofs.«416321_j46445776339725_1_alg».proof.Proof.Val.MlpPoint0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

private theorem zero2 : (![0, 0] : Fin 2 → Nat) = fun _ => 0 := funext fun a => by fin_cases a <;> rfl
private theorem zero1 : (![0] : Fin 1 → Nat) = fun _ => 0 := funext fun a => by fin_cases a <;> rfl

theorem lt_points2 (t : Fin cfg2.N) : t.val < 20 :=
  Nat.lt_of_lt_of_eq t.isLt (show cfg2.N = 20 from N_2)

theorem idx2_0 : ∀ t : Fin cfg2.N, win2_0.index t (0 : Fin 2) = t.val ∧ win2_0.index t (1 : Fin 2) = 0 :=
  (by decide +kernel : ∀ t : Fin grid2.N, _)
theorem idx2_9 : ∀ t : Fin cfg2.N, win2_9.index t (0 : Fin 2) = t.val ∧ win2_9.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 1) = 0 :=
  (by decide +kernel : ∀ t : Fin grid2.N, _)
theorem idx2_3 : ∀ t : Fin cfg2.N, win2_3.index t (0 : Fin 1) = 0 :=
  (by decide +kernel : ∀ t : Fin grid2.N, _)
theorem idx2_4 : ∀ t : Fin cfg2.N, win2_4.index t (0 : Fin 1) = 0 :=
  (by decide +kernel : ∀ t : Fin grid2.N, _)
theorem idx2_5 : ∀ t : Fin cfg2.N, win2_5.index t (0 : Fin 1) = 0 :=
  (by decide +kernel : ∀ t : Fin grid2.N, _)
theorem idx2_6 : ∀ t : Fin cfg2.N, win2_6.index t (0 : Fin 1) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 1) = 0 :=
  (by decide +kernel : ∀ t : Fin grid2.N, _)

theorem iblk2_0_apply (c : Dev nD) (t : Fin cfg2.N) (p : Fin 5000) (q : Fin 32) :
    (iblk2 V c 0 t : Vec Ideal S5000x32 .f32) (ix2 p q)
      = (V c main_v38 : S100000x32.Idx → Elt Ideal .f32) (ix2 (⟨5000 * t.val + p.val, by have := lt_points2 t; omega⟩ : Fin 100000) q) := by
  unfold iblk2
  rw [View.read_apply]
  show V c main_v38 _ = V c main_v38 _
  congr 1
  funext a
  apply Fin.ext
  match a with
  | ⟨0, _⟩ => show win2_0.index t (0 : Fin 2) * 5000 + 1 * p.val = 5000 * t.val + p.val; rw [(idx2_0 t).1]; omega
  | ⟨1, _⟩ => show win2_0.index t (1 : Fin 2) * 32 + 1 * q.val = q.val; rw [(idx2_0 t).2]; omega

theorem iblk2_1_eq (c : Dev nD) (t : Fin cfg2.N) : (iblk2 V c 1 t : Vec Ideal S32x32 .f32) = (V c main_arg20 : S32x32.Idx → Elt Ideal .f32) := by
  funext y
  unfold iblk2
  rw [View.read_apply]
  show V c main_arg20 _ = V c main_arg20 _
  congr 1
  funext a
  apply Fin.ext
  match a with
  | ⟨0, _⟩ => show win2_1.index t (0 : Fin 2) * 32 + 1 * (y 0).val = (y 0).val; rw [(idx2_1 t).1]; omega
  | ⟨1, _⟩ => show win2_1.index t (1 : Fin 2) * 32 + 1 * (y 1).val = (y 1).val; rw [(idx2_1 t).2]; omega
theorem iblk2_2_eq (c : Dev nD) (t : Fin cfg2.N) : (iblk2 V c 2 t : Vec Ideal S32 .f32) = (V c main_arg21 : S32.Idx → Elt Ideal .f32) := by
  funext y
  unfold iblk2
  rw [View.read_apply]
  show V c main_arg21 _ = V c main_arg21 _
  congr 1
  funext a
  apply Fin.ext
  match a with
  | ⟨0, _⟩ => show win2_2.index t (0 : Fin 1) * 32 + 1 * (y 0).val = (y 0).val; rw [idx2_2 t]; omega
theorem iblk2_3_eq (c : Dev nD) (t : Fin cfg2.N) : (iblk2 V c 3 t : Vec Ideal S32 .f32) = (V c main_arg22 : S32.Idx → Elt Ideal .f32) := by
  funext y
  unfold iblk2
  rw [View.read_apply]
  show V c main_arg22 _ = V c main_arg22 _
  congr 1
  funext a
  apply Fin.ext
  match a with
  | ⟨0, _⟩ => show win2_3.index t (0 : Fin 1) * 32 + 1 * (y 0).val = (y 0).val; rw [idx2_3 t]; omega
theorem iblk2_4_eq (c : Dev nD) (t : Fin cfg2.N) : (iblk2 V c 4 t : Vec Ideal S32 .f32) = (V c main_arg23 : S32.Idx → Elt Ideal .f32) := by
  funext y
  unfold iblk2
  rw [View.read_apply]
  show V c main_arg23 _ = V c main_arg23 _
  congr 1
  funext a
  apply Fin.ext
  match a with
  | ⟨0, _⟩ => show win2_4.index t (0 : Fin 1) * 32 + 1 * (y 0).val = (y 0).val; rw [idx2_4 t]; omega
theorem iblk2_5_eq (c : Dev nD) (t : Fin cfg2.N) : (iblk2 V c 5 t : Vec Ideal S32 .f32) = (V c main_arg24 : S32.Idx → Elt Ideal .f32) := by
  funext y
  unfold iblk2
  rw [View.read_apply]
  show V c main_arg24 _ = V c main_arg24 _
  congr 1
  funext a
  apply Fin.ext
  match a with
  | ⟨0, _⟩ => show win2_5.index t (0 : Fin 1) * 32 + 1 * (y 0).val = (y 0).val; rw [idx2_5 t]; omega
theorem iblk2_6_eq (c : Dev nD) (t : Fin cfg2.N) : (iblk2 V c 6 t : Vec Ideal S32 .f32) = (V c main_arg25 : S32.Idx → Elt Ideal .f32) := by
  funext y
  unfold iblk2
  rw [View.read_apply]
  show V c main_arg25 _ = V c main_arg25 _
  congr 1
  funext a
  apply Fin.ext
  match a with
  | ⟨0, _⟩ => show win2_6.index t (0 : Fin 1) * 32 + 1 * (y 0).val = (y 0).val; rw [idx2_6 t]; omega
theorem iblk2_7_eq (c : Dev nD) (t : Fin cfg2.N) : (iblk2 V c 7 t : Vec Ideal S32x32 .f32) = (V c main_arg26 : S32x32.Idx → Elt Ideal .f32) := by
  funext y
  unfold iblk2
  rw [View.read_apply]
  show V c main_arg26 _ = V c main_arg26 _
  congr 1
  funext a
  apply Fin.ext
  match a with
  | ⟨0, _⟩ => show win2_7.index t (0 : Fin 2) * 32 + 1 * (y 0).val = (y 0).val; rw [(idx2_7 t).1]; omega
  | ⟨1, _⟩ => show win2_7.index t (1 : Fin 2) * 32 + 1 * (y 1).val = (y 1).val; rw [(idx2_7 t).2]; omega
theorem iblk2_8_eq (c : Dev nD) (t : Fin cfg2.N) : (iblk2 V c 8 t : Vec Ideal S32 .f32) = (V c main_arg27 : S32.Idx → Elt Ideal .f32) := by
  funext y
  unfold iblk2
  rw [View.read_apply]
  show V c main_arg27 _ = V c main_arg27 _
  congr 1
  funext a
  apply Fin.ext
  match a with
  | ⟨0, _⟩ => show win2_8.index t (0 : Fin 1) * 32 + 1 * (y 0).val = (y 0).val; rw [idx2_8 t]; omega

theorem oblk2_emb (t : Fin cfg2.N) (p : Fin 5000) (q : Fin 32) :
    ((cfg2.win 9).blk t).view.emb (ix2 p q) = (ix2 (⟨5000 * t.val + p.val, by have := lt_points2 t; omega⟩ : Fin 100000) q : S100000x32.Idx) := by
  funext a
  apply Fin.ext
  match a with
  | ⟨0, _⟩ => show win2_9.index t (0 : Fin 2) * 5000 + 1 * p.val = 5000 * t.val + p.val; rw [(idx2_9 t).1]; omega
  | ⟨1, _⟩ => show win2_9.index t (1 : Fin 2) * 32 + 1 * q.val = q.val; rw [(idx2_9 t).2]; omega

theorem flushed2_eq (c : Dev nD) (t : Fin cfg2.N) :
    (dat2 V c).flushed 9 t = ((cfg2.win 9).blk t).view.read (Elt Ideal) (Cert.Spec.mlp (V c main_v38) (V c main_arg20) (V c main_arg21) (V c main_arg22) (V c main_arg23) (V c main_arg24) (V c main_arg25) (V c main_arg26) (V c main_arg27)) := by
  show (cfg2.win 9).cut (grid2.coords t) ((dat2 V c).after 9 t) = _
  rw [after2_9]
  unfold out2_9
  rw [View.canon_unit_zero zero2]
  simp only [View.ld_unit_zero (S := S5000x32) zero2, View.ld_unit_zero (S := S32x32) zero2, View.ld_unit_zero (S := S32) zero1]
  funext j
  obtain ⟨p, q, rfl⟩ : ∃ (p : Fin 5000) (q : Fin 32), j = ix2 p q := ⟨j 0, j 1, eq_ix2 j⟩
  rw [View.read_apply, oblk2_emb]
  exact mlp_point0 t.val (lt_points2 t) _ _ _ _ _ _ _ _ _ _ _ _ _ _ _ _ _ _ (iblk2_0_apply V c t)
    (iblk2_1_eq V c t) (iblk2_2_eq V c t) (iblk2_3_eq V c t) (iblk2_4_eq V c t) (iblk2_5_eq V c t) (iblk2_6_eq V c t)
    (iblk2_7_eq V c t) (iblk2_8_eq V c t) p q

theorem mem_oblk2 (t : Fin cfg2.N) (i : S100000x32.Idx) :
    i ∈ ((cfg2.win 9).blk t).view.set ↔ ∀ a : Fin 2, win2_9.index t a * S5000x32.size a ≤ (i a).val ∧ (i a).val < win2_9.index t a * S5000x32.size a + S5000x32.size a := by
  show i ∈ ((View.whole main_v39).slice (win2_9.rect t)).set ↔ _
  rw [View.set_slice_whole, Rect.mem_set_unit]
  exact Iff.rfl

theorem cover2 (i : S100000x32.Idx) : ∃ t : Fin cfg2.N, (cfg2.win 9).flush t = true ∧ i ∈ ((cfg2.win 9).blk t).view.set := by
  have hi0 : (i 0).val < 100000 := (i 0).isLt
  have hi1 : (i 1).val < 32 := (i 1).isLt
  have hN : cfg2.N = 20 := N_2
  refine ⟨⟨(i 0).val / 5000, by rw [hN]; omega⟩, flush2_9 _, ?_⟩
  rw [mem_oblk2]
  intro a
  match a with
  | ⟨0, _⟩ => show win2_9.index _ (0 : Fin 2) * 5000 ≤ (i 0).val ∧ (i 0).val < win2_9.index _ (0 : Fin 2) * 5000 + 5000; rw [(idx2_9 _).1]; show (i 0).val / 5000 * 5000 ≤ (i 0).val ∧ (i 0).val < (i 0).val / 5000 * 5000 + 5000; omega
  | ⟨1, _⟩ => show win2_9.index _ (1 : Fin 2) * 32 ≤ (i 1).val ∧ (i 1).val < win2_9.index _ (1 : Fin 2) * 32 + 32; rw [(idx2_9 _).2]; omega

theorem final2 (c : Dev nD) : (dat2 V c).arrAt 9 cfg2.N = (Cert.Spec.mlp (V c main_v38) (V c main_arg20) (V c main_arg21) (V c main_arg22) (V c main_arg23) (V c main_arg24) (V c main_arg25) (V c main_arg26) (V c main_arg27)) :=
  (dat2 V c).arrAt_eq_of_cover 9 (Cert.Spec.mlp (V c main_v38) (V c main_arg20) (V c main_arg21) (V c main_arg22) (V c main_arg23) (V c main_arg24) (V c main_arg25) (V c main_arg26) (V c main_arg27)) (fun t _ => flushed2_eq V c t) cover2

end Cert.KernelIdeal.Hand

end
-- ==== Proof.Val.PoolVal.lean ====
import proofs.«416321_j46445776339725_1_alg».proof.Proof.KI.Pool3
import proofs.«416321_j46445776339725_1_alg».proof.Proof.Val.SpecPool
import Idealize.ShloMosaic.Lib.Pipeline.Value
import Idealize.ShloMosaic.Lib.ValueIdx
import Idealize.ShloMosaic.Lib.FinSumWindow
import Idealize.ShloMosaic.Lib.StableHlo.Predicate
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window cellOf)

variable (V : (c : Dev nD) → (b : Ref sig .tc) → Buf (Elt Ideal) ((c : Thread nD τ).loc b))

theorem matmul_rows_apply {K m n : Nat} {φ₁ φ₂ : FTy}
    (w : DotDims.WF ⟨2, ![K, m]⟩ ⟨2, ![K, n]⟩ ⟨2, ![m, n]⟩ [0] [0] [1] [1] [] [])
    (prec : Option ContractPrecision) (A : FVec Ideal ⟨2, ![K, m]⟩ φ₁) (B : FVec Ideal ⟨2, ![K, n]⟩ φ₂)
    (acc : FVec Ideal ⟨2, ![m, n]⟩ .f32) (a : Fin m) (b : Fin n) :
    FloatOps.matmul (⟨[0], [0], [1], [1], [], [], w⟩ : DotDims _ _ _) prec A B acc (ix2 a b)
      = acc (ix2 a b) + ∑ c : Fin K, A (ix2 c a) * B (ix2 c b) := by
  rw [Ideal.matmul_apply, ← Equiv.sum_comp (contrEquiv1 (⟨[0], [0], [1], [1], [], [], w⟩ : DotDims _ _ _) K rfl rfl).symm]
  congr 1
  refine Finset.sum_congr rfl fun c _ => ?_
  have c2 := contrEquiv1_symm_val (⟨[0], [0], [1], [1], [], [], w⟩ : DotDims ⟨2, ![K, m]⟩ ⟨2, ![K, n]⟩ ⟨2, ![m, n]⟩) K rfl rfl c
  have l2 : (⟨[0], [0], [1], [1], [], [], w⟩ : DotDims ⟨2, ![K, m]⟩ ⟨2, ![K, n]⟩ ⟨2, ![m, n]⟩).lhsIdx (ix2 a b)
      ((contrEquiv1 _ K rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![K, m]⟩ ⟨2, ![K, n]⟩ ⟨2, ![m, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem onehot_scalar (x y : BitVec 32) :
    (FloatOps.sitofp (F := Ideal) .f32 ((IntOp.cmpi .eq x y).setWidth 32) : EReal) = if x = y then 1 else 0 := by
  by_cases h : x = y
  · rw [if_pos h, StableHlo.Predicate.cmpi_eq_iff.mpr h]
    show ((((1#1 : BitVec 1).setWidth 32).toInt : ℝ) : EReal) = 1
    rw [show ((1#1 : BitVec 1).setWidth 32).toInt = 1 from by decide]
    norm_cast
  · rw [if_neg h, eq_zero_of_ne_one (fun h1 => h (StableHlo.Predicate.cmpi_eq_iff.mp h1))]
    show ((((0#1 : BitVec 1).setWidth 32).toInt : ℝ) : EReal) = 0
    rw [show ((0#1 : BitVec 1).setWidth 32).toInt = 0 from by decide]
    norm_cast

theorem pay2_apply (v3 : Vec Ideal S4000x96 .f32) (v6 : Vec Ideal S4000x1 .i32) (v15 : Vec Ideal S2048x96 .f32)
    (g : Fin 2048) (d : Fin 96) :
    k3_pay2 v3 v6 v15 (ix2 g d)
      = v15 (ix2 g d) + ∑ k : Fin 4000, if v6 (ix2 k (0 : Fin 1)) = BitVec.ofNat 32 g.val then v3 (ix2 k d) else 0 := by
  unfold k3_pay2
  simp only [shapeCast_self, addf_apply, matmul]
  have hd : dot_S4000x2048_S4000x96_S2048x96_0_0_1_1_n_n
      = (⟨[0], [0], [1], [1], [], [], dot_S4000x2048_S4000x96_S2048x96_0_0_1_1_n_n_wf⟩ : DotDims _ _ _) := rfl
  rw [hd, matmul_rows_apply]
  congr 1
  rw [constant_apply, Ideal.ofBits_zero_f32, zero_add]
  refine Finset.sum_congr rfl fun k _ => ?_
  have hb : broadcastTo S4000x2048 v6 broadcasts_S4000x1_S4000x2048 (ix2 k g) = v6 (ix2 k (0 : Fin 1)) :=
    broadcastTo_apply v6 broadcasts_S4000x1_S4000x2048 (ix2 k g) (ix2 k (0 : Fin 1)) (by
      intro a
      match a with
      | ⟨0, _⟩ => rfl
      | ⟨1, _⟩ => rfl)
  have hi : iota .tc S4000x2048 32 [1] iota_S4000x2048_d1_w32 (ix2 k g) = BitVec.ofNat 32 g.val :=
    iota_single_apply .tc S4000x2048 32 1 iota_S4000x2048_d1_w32 (ix2 k g)
  show (FloatOps.sitofp (F := Ideal) .f32 ((IntOp.cmpi .eq (broadcastTo S4000x2048 v6 broadcasts_S4000x1_S4000x2048 (ix2 k g))
      (iota .tc S4000x2048 32 [1] iota_S4000x2048_d1_w32 (ix2 k g))).setWidth 32) : EReal) * v3 (ix2 k d) = _
  rw [hb, hi, onehot_scalar]
  split
  · exact one_mul _
  · exact zero_mul _

theorem pay1_apply (j : S2048x96.Idx) : (k3_pay1 (F := Ideal)) j = 0 := by
  unfold k3_pay1
  simp only [shapeCast_self]
  exact Ideal.ofBits_zero_f32

theorem sum_prefix_succ {R : Type*} [AddCommMonoid R] {N W : ℕ} (lo : ℕ) (hlo : lo + W ≤ N) (f : Fin N → R) :
    (∑ P : Fin N, if P.val < lo + W then f P else 0)
      = (∑ P : Fin N, if P.val < lo then f P else 0) + ∑ p : Fin W, f ⟨lo + p.val, by have := p.isLt; omega⟩ := by
  have h2 : (∑ P : Fin N, if lo ≤ P.val ∧ P.val < lo + W then f P else 0) = ∑ p : Fin W, f ⟨lo + p.val, by have := p.isLt; omega⟩ := by
    rw [FinSumWindow.sum_window lo hlo _ (fun P hP => if_neg hP)]
    refine Finset.sum_congr rfl fun p _ => if_pos ⟨?_, ?_⟩
    · show lo ≤ lo + p.val
      omega
    · show lo + p.val < lo + W
      have := p.isLt; omega
  rw [← h2, ← Finset.sum_add_distrib]
  refine Finset.sum_congr rfl fun P _ => ?_
  by_cases h1 : P.val < lo
  · rw [if_pos (by omega), if_pos h1, if_neg (by omega), add_zero]
  · by_cases h3 : P.val < lo + W
    · rw [if_pos h3, if_neg h1, if_pos ⟨by omega, h3⟩, zero_add]
    · rw [if_neg h3, if_neg h1, if_neg (fun h => h3 h.2), add_zero]

theorem hidx3_0 : ∀ t : Fin grid3.N, win3_0.index t 0 = t.val ∧ win3_0.index t 1 = 0 := by decide +kernel
theorem hidx3_1 : ∀ t : Fin grid3.N, win3_1.index t 0 = t.val ∧ win3_1.index t 1 = 0 := by decide +kernel

theorem iblk3_0_apply (c : Dev nD) (t : Fin cfg3.N) (x : S4000x96.Idx) (k : S100000x96.Idx)
    (hk0 : (k 0).val = 4000 * t.val + (x 0).val) (hk1 : (k 1).val = (x 1).val) :
    (iblk3 V c 0 t : Vec Ideal S4000x96 .f32) x = (V c main_v40 : S100000x96.Idx → Elt Ideal .f32) k := by
  have hi := hidx3_0 t
  unfold iblk3
  rw [View.read_apply]
  show V c main_v40 _ = V c main_v40 _
  congr 1
  funext a
  apply Fin.ext
  match a with
  | ⟨0, _⟩ => show win3_0.index t 0 * 4000 + 1 * (x 0).val = (k 0).val; rw [hi.1, hk0]; omega
  | ⟨1, _⟩ => show win3_0.index t 1 * 96 + 1 * (x 1).val = (k 1).val; rw [hi.2, hk1]; omega

theorem iblk3_1_apply (c : Dev nD) (t : Fin cfg3.N) (x : S4000x1.Idx) (k : S100000x1.Idx)
    (hk0 : (k 0).val = 4000 * t.val + (x 0).val) (hk1 : (k 1).val = (x 1).val) :
    (iblk3 V c 1 t : Vec Ideal S4000x1 .i32) x = (V c main_v41 : S100000x1.Idx → Elt Ideal .i32) k := by
  have hi := hidx3_1 t
  unfold iblk3
  rw [View.read_apply]
  show V c main_v41 _ = V c main_v41 _
  congr 1
  funext a
  apply Fin.ext
  match a with
  | ⟨0, _⟩ => show win3_1.index t 0 * 4000 + 1 * (x 0).val = (k 0).val; rw [hi.1, hk0]; omega
  | ⟨1, _⟩ => show win3_1.index t 1 * 1 + 1 * (x 1).val = (k 1).val; rw [hi.2, hk1]; omega

def term3 (c : Dev nD) (g : Fin 2048) (d : Fin 96) (p : Fin 100000) : EReal :=
  if (V c main_v41 : S100000x1.Idx → BitVec 32) (ix2 p (0 : Fin 1)) = BitVec.ofNat 32 g.val
  then (V c main_v40 : S100000x96.Idx → EReal) (ix2 p d) else 0

theorem N3_eq : cfg3.N = 25 := N_3

theorem block_sum3 (c : Dev nD) (g : Fin 2048) (d : Fin 96) (t : Fin cfg3.N)
    (v3 : Vec Ideal S4000x96 .f32) (v6 : Vec Ideal S4000x1 .i32) (h3 : v3 = iblk3 V c 0 t) (h6 : v6 = iblk3 V c 1 t) :
    (∑ k : Fin 4000, if v6 (ix2 k (0 : Fin 1)) = BitVec.ofNat 32 g.val then v3 (ix2 k d) else 0)
      = ∑ k : Fin 4000, term3 V c g d ⟨4000 * t.val + k.val, by have := t.isLt; have := N3_eq; have := k.isLt; omega⟩ := by
  subst h3 h6
  refine Finset.sum_congr rfl fun k _ => ?_
  have hlt : 4000 * t.val + k.val < 100000 := by have := t.isLt; have := N3_eq; have := k.isLt; omega
  rw [iblk3_1_apply V c t (ix2 k (0 : Fin 1)) (ix2 ⟨4000 * t.val + k.val, hlt⟩ (0 : Fin 1)) rfl rfl,
    iblk3_0_apply V c t (ix2 k d) (ix2 ⟨4000 * t.val + k.val, hlt⟩ d) rfl rfl]
  rfl

theorem acc3_apply (c : Dev nD) (g : Fin 2048) (d : Fin 96) : ∀ (n : ℕ) (h : n < cfg3.N),
    acc3 V c n h (ix2 g d) = ∑ p : Fin 100000, if p.val < 4000 * (n + 1) then term3 V c g d p else 0
  | 0, h => by
    show k3_pay2 (iblk3 V c 0 ⟨0, h⟩) (iblk3 V c 1 ⟨0, h⟩) (k3_pay1 (F := Ideal)) (ix2 g d) = _
    rw [pay2_apply, pay1_apply, zero_add, block_sum3 V c g d ⟨0, h⟩ _ _ rfl rfl,
      show 4000 * (0 + 1) = 0 + 4000 from rfl, sum_prefix_succ 0 (by omega) (term3 V c g d),
      Finset.sum_eq_zero (fun P _ => if_neg (Nat.not_lt_zero _)), zero_add]
    rfl
  | n + 1, h => by
    have hN := N3_eq
    show k3_pay2 (iblk3 V c 0 ⟨n + 1, h⟩) (iblk3 V c 1 ⟨n + 1, h⟩) (acc3 V c n (Nat.lt_of_succ_lt h)) (ix2 g d) = _
    rw [pay2_apply, acc3_apply c g d n (Nat.lt_of_succ_lt h), block_sum3 V c g d ⟨n + 1, h⟩ _ _ rfl rfl,
      show 4000 * (n + 1 + 1) = 4000 * (n + 1) + 4000 from by omega,
      sum_prefix_succ (4000 * (n + 1)) (by omega) (term3 V c g d)]

theorem acc3_last (c : Dev nD) (h : 24 < cfg3.N) :
    acc3 V c 24 h = Cert.Spec.onehotSum (V c main_v40) (V c main_v41) := by
  funext j
  obtain ⟨g, d, rfl⟩ : ∃ (g : Fin 2048) (d : Fin 96), j = ix2 g d := ⟨j 0, j 1, eq_ix2 j⟩
  rw [acc3_apply V c g d 24 h]
  unfold Cert.Spec.onehotSum
  refine Finset.sum_congr rfl fun p _ => ?_
  rw [if_pos (by have := p.isLt; omega)]
  rfl

def t3_last : Fin cfg3.N := ⟨24, by rw [N3_eq]; decide⟩

theorem flushed_eq3 (c : Dev nD) (t : Fin cfg3.N) (hf : (cfg3.win 2).flush t = true) :
    (dat3 V c).flushed 2 t
      = ((cfg3.win 2).blk t).view.read (Elt Ideal) (Cert.Spec.onehotSum (V c main_v40) (V c main_v41)) := by
  have hN := N3_eq
  have h1 : t.val = 24 := by have := (flush3_2 t).mp hf; have := t.isLt; omega
  obtain rfl : t = t3_last := Fin.ext h1
  show (cfg3.win 2).cut (grid3.coords t3_last) ((dat3 V c).after 2 t3_last) = _
  rw [after3_2, show acc3 V c t3_last.val t3_last.isLt = _ from acc3_last V c t3_last.isLt]
  have hz' : (fun a => win3_2.index t3_last a * main_v42.ty.shape.size a) = fun _ => 0 := funext fun a => by fin_cases a <;> decide
  exact (Memref.read_access_unit_zero (Elt Ideal) main_v42 hz' (fun a => by rw [congrFun hz' a]; simp)
    (Cert.Spec.onehotSum (V c main_v40) (V c main_v41))).symm

theorem final3 (c : Dev nD) : (dat3 V c).arrAt 2 cfg3.N = Cert.Spec.onehotSum (V c main_v40) (V c main_v41) :=
  (dat3 V c).arrAt_eq_of_cover 2 (Cert.Spec.onehotSum (V c main_v40) (V c main_v41)) (flushed_eq3 V c) fun i =>
    ⟨t3_last, (flush3_2 t3_last).mpr rfl, by
      show i ∈ ((View.whole main_v42).slice (win3_2.rect t3_last)).set
      rw [View.set_slice_whole, Rect.mem_set_unit]
      intro a
      have h0 : (i 0 : Nat) < 2048 := (i 0).isLt
      have h1 : (i 1 : Nat) < 96 := (i 1).isLt
      match a with
      | ⟨0, _⟩ => show win3_2.index t3_last 0 * win3_2.size 0 ≤ (i 0 : Nat) ∧ (i 0 : Nat) < win3_2.index t3_last 0 * win3_2.size 0 + win3_2.xsize (grid3.coords t3_last) 0
                  rw [show win3_2.index t3_last 0 * win3_2.size 0 = 0 from by decide +kernel, show win3_2.xsize (grid3.coords t3_last) 0 = 2048 from by decide +kernel]; omega
      | ⟨1, _⟩ => show win3_2.index t3_last 1 * win3_2.size 1 ≤ (i 1 : Nat) ∧ (i 1 : Nat) < win3_2.index t3_last 1 * win3_2.size 1 + win3_2.xsize (grid3.coords t3_last) 1
                  rw [show win3_2.index t3_last 1 * win3_2.size 1 = 0 from by decide +kernel, show win3_2.xsize (grid3.coords t3_last) 1 = 96 from by decide +kernel]; omega⟩

end Cert.KernelIdeal.Hand

end
-- ==== Proof.Val.LeakyLaw.lean ====
import Idealize.ShloMosaic.PureOps.Ideal
import Idealize.ShloMosaic.PureOps.Ideal.Laws

noncomputable section

namespace Cert.Spec

open Idealize.ShloMosaic

theorem leaky_gt_eq_ge (x s : EReal) :
    Scalar.select (Ideal.cmp .ogt x 0) x (s * x) = Scalar.select (Ideal.cmp .oge x 0) x (s * x) := by
  simp only [Scalar.select, Ideal.cmp]
  by_cases hgt : 0 < x
  · simp [hgt, hgt.le]
  · by_cases hlt : x < 0
    · simp [hgt, not_le.mpr hlt]
    · have h0 : x = 0 := le_antisymm (not_lt.mp hgt) (not_lt.mp hlt)
      simp [h0]

theorem leaky_ogt_eq_oge_f32 (x s : Ideal .f32) :
    Scalar.select (FloatOps.cmpf .ogt x (Scalar.ofBits (F := Ideal) .f32 0x00000000#32)) x (s * x)
      = Scalar.select (FloatOps.cmpf .oge x (Ideal.ofBits .f32 0x00000000#32)) x (s * x) := by
  have hs : Scalar.ofBits (F := Ideal) .f32 0x00000000#32 = Ideal.ofBits .f32 0x00000000#32 := rfl
  rw [hs, Ideal.cmpf_def, Ideal.cmpf_def, Ideal.ofBits_zero_f32]
  exact leaky_gt_eq_ge x s

end Cert.Spec

end
-- ==== Proof.Val.FinalPoint.lean ====
import proofs.«416321_j46445776339725_1_alg».proof.Proof.Gen.KernelIdeal.Skeleton
import proofs.«416321_j46445776339725_1_alg».proof.Proof.Val.Spec
import proofs.«416321_j46445776339725_1_alg».proof.Proof.Val.LeakyLaw
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.StackMember

noncomputable section

namespace Cert.KernelIdeal.Hand

open Idealize.ShloMosaic Idealize.ShloMosaic.ValueIdx Idealize.ShloMosaic.StackMember
open Cert.KernelIdeal Cert.KernelIdeal.Gen

namespace FinalPoint

theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (dotGeneral_plain_apply prec A B a b))

theorem kdot1_eq : dot_S512x96_S96x96_S512x96_1_0_0_1_n_n = DotDims.plain 512 96 96 := rfl
theorem kdot2_eq : dot_S512x96_S96x10_S512x10_1_0_0_1_n_n = DotDims.plain 512 96 10 := rfl
theorem rdot1_eq : Cert.ReferenceIdeal.dot_S2048x96_S96x96_S2048x96_1_0_0_1_n_n = DotDims.plain 2048 96 96 := rfl
theorem rdot2_eq : Cert.ReferenceIdeal.dot_S2048x96_S96x10_S2048x10_1_0_0_1_n_n = DotDims.plain 2048 96 10 := rfl

theorem broadcastInDim_row_apply {α : Type} {n : Nat} (h : (⟨1, ![n]⟩ : Shape).BroadcastsInDim ⟨2, ![1, n]⟩ ![1])
    (x : (⟨1, ![n]⟩ : Shape).Idx → α) (u : Fin 1) (i : Fin n) :
    broadcastInDim ⟨2, ![1, n]⟩ ![1] h x (ix2 u i) = x (ix1 i) := by
  refine broadcastInDim_apply ![1] h x (ix2 u i) (ix1 i) fun a => ?_
  match a with
  | ⟨0, _⟩ =>
    show i.val = if n = 1 then 0 else i.val
    split
    · have := i.isLt; omega
    · rfl

theorem tr1_apply {α : Type} (w : S96x96.Idx → α) (c k : Fin 96) :
    transpose S96x96 [1, 0] w transposes_S96x96_p1_0_S96x96 (ix2 c k) = w (ix2 k c) :=
  transpose_ix2_apply w transposes_S96x96_p1_0_S96x96 c k
theorem tr2_apply {α : Type} (w : S10x96.Idx → α) (k : Fin 96) (b : Fin 10) :
    transpose S96x10 [1, 0] w transposes_S10x96_p1_0_S96x10 (ix2 k b) = w (ix2 b k) :=
  transpose_ix2_apply w transposes_S10x96_p1_0_S96x10 k b

def preAct {m : Nat} (x : FVec Ideal ⟨2, ![m, 96]⟩ .f32) (l1w : FVec Ideal S96x96 .f32) (l1b : FVec Ideal S96 .f32)
    (l2w : FVec Ideal S10x96 .f32) (l2b : FVec Ideal S10 .f32) (a : Fin m) (b : Fin 10) : EReal :=
  ∑ k : Fin 96, max (∑ c : Fin 96, x (ix2 a c) * l1w (ix2 k c) + l1b (ix1 k)) (Ideal.ofBits .f32 0x00000000#32) * l2w (ix2 b k)
    + l2b (ix1 b)

theorem rowR_apply {α : Type} {m n : Nat} (v : (⟨1, ![n]⟩ : Shape).Idx → α) (h1 : (⟨1, ![n]⟩ : Shape).BroadcastsInDim ⟨2, ![1, n]⟩ ![1])
    (hb : (⟨2, ![1, n]⟩ : Shape).BroadcastsInDim ⟨2, ![m, n]⟩ ![0, 1]) (a : Fin m) (k : Fin n) :
    broadcastInDim ⟨2, ![m, n]⟩ ![0, 1] hb (broadcastInDim ⟨2, ![1, n]⟩ ![1] h1 v) (ix2 a k) = v (ix1 k) := by
  rw [broadcastInDim_oneRow_apply, broadcastInDim_row_apply]

theorem splatR_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w := by
  rw [broadcastInDim_scalar_apply]; rfl

set_option maxHeartbeats 1000000 in

theorem k4_pay1_apply (x0 : FVec Ideal S512x96 .f32) (l1w : FVec Ideal S96x96 .f32) (l1b : FVec Ideal S96 .f32)
    (l2w : FVec Ideal S10x96 .f32) (l2b : FVec Ideal S10 .f32) (a : Fin 512) (b : Fin 10) :
    k4_pay1 (F := Ideal) x0 l1w l1b l2w l2b (ix2 a b)
      = Scalar.select (FloatOps.cmpf .ogt (preAct x0 l1w l1b l2w l2b a b) (Scalar.ofBits (F := Ideal) .f32 0x00000000#32))
          (preAct x0 l1w l1b l2w l2b a b) (Ideal.ofBits .f32 0x3C23D70A#32 * preAct x0 l1w l1b l2w l2b a b) := by
  unfold k4_pay1
  dsimp only
  generalize hT1 : transpose S96x96 [1, 0] (truncf .bf16 l1w bitsLt_bf16_f32) transposes_S96x96_p1_0_S96x96 = T1
  generalize hT2 : transpose S96x10 [1, 0] (truncf .bf16 l2w bitsLt_bf16_f32) transposes_S10x96_p1_0_S96x10 = T2
  have hT1' : ∀ c k : Fin 96, T1 (ix2 c k) = l1w (ix2 k c) := fun c k => by rw [← hT1, tr1_apply]; rfl
  have hT2' : ∀ (k : Fin 96) (b : Fin 10), T2 (ix2 k b) = l2w (ix2 b k) := fun k b => by rw [← hT2, tr2_apply]; rfl
  simp only [select_apply, cmpf_apply, mulf_apply, addf_apply, broadcast_apply, maximumf_apply, truncf_apply, matmul,
    kdot1_eq, kdot2_eq, matmul_plain_zero_apply, hT1', hT2', shapeCast_self, broadcastTo_1b_ab_apply, shapeCast_a_1a_apply]
  rfl

set_option maxHeartbeats 1000000 in

theorem head_apply (p : FVec Ideal S2048x96 .f32) (l1w : FVec Ideal S96x96 .f32) (l1b : FVec Ideal S96 .f32)
    (l2w : FVec Ideal S10x96 .f32) (l2b : FVec Ideal S10 .f32) (r : Fin 2048) (b : Fin 10) :
    Cert.Spec.head p l1w l1b l2w l2b (ix2 r b)
      = Scalar.select (FloatOps.cmpf .oge (preAct p l1w l1b l2w l2b r b) (Ideal.ofBits .f32 0x00000000#32))
          (preAct p l1w l1b l2w l2b r b) (Ideal.ofBits .f32 0x3C23D70A#32 * preAct p l1w l1b l2w l2b r b) := by
  unfold Cert.Spec.head
  dsimp only
  generalize hT1 : transpose Cert.ReferenceIdeal.S96x96 [1, 0] l1w Cert.ReferenceIdeal.Gen.transposes_S96x96_S96x96_1_0 = T1
  generalize hT2 : transpose Cert.ReferenceIdeal.S96x10 [1, 0] l2w Cert.ReferenceIdeal.Gen.transposes_S10x96_S96x10_1_0 = T2
  have hT1' : ∀ c k : Fin 96, T1 (ix2 c k) = l1w (ix2 k c) := fun c k => by rw [← hT1, transpose_ix2_apply]
  have hT2' : ∀ (k : Fin 96) (b : Fin 10), T2 (ix2 k b) = l2w (ix2 b k) := fun k b => by rw [← hT2, transpose_ix2_apply]
  generalize hB1 : broadcastInDim Cert.ReferenceIdeal.S2048x96 ![0, 1] Cert.ReferenceIdeal.Gen.bcast_S1x96_S2048x96_0_1
    (broadcastInDim Cert.ReferenceIdeal.S1x96 ![1] Cert.ReferenceIdeal.Gen.bcast_S96_S1x96_1 l1b) = B1
  generalize hB2 : broadcastInDim Cert.ReferenceIdeal.S2048x10 ![0, 1] Cert.ReferenceIdeal.Gen.bcast_S1x10_S2048x10_0_1
    (broadcastInDim Cert.ReferenceIdeal.S1x10 ![1] Cert.ReferenceIdeal.Gen.bcast_S10_S1x10_1 l2b) = B2
  generalize hZ1 : broadcastInDim Cert.ReferenceIdeal.S2048x96 ![] Cert.ReferenceIdeal.Gen.bcast_S_S2048x96
    (constant (F := Ideal) Cert.ReferenceIdeal.S_ .f32 0x00000000#32) = Z1
  generalize hZ2 : broadcastInDim Cert.ReferenceIdeal.S2048x10 ![] Cert.ReferenceIdeal.Gen.bcast_S_S2048x10
    (constant (F := Ideal) Cert.ReferenceIdeal.S_ .f32 0x00000000#32) = Z2
  generalize hZ3 : broadcastInDim Cert.ReferenceIdeal.S2048x10 ![] Cert.ReferenceIdeal.Gen.bcast_S_S2048x10
    (constant (F := Ideal) Cert.ReferenceIdeal.S_ .f32 0x3C23D70A#32) = Z3
  have hB1' : ∀ (r : Fin 2048) (k : Fin 96), B1 (ix2 r k) = l1b (ix1 k) := fun r k => by rw [← hB1, rowR_apply]
  have hB2' : ∀ (r : Fin 2048) (k : Fin 10), B2 (ix2 r k) = l2b (ix1 k) := fun r k => by rw [← hB2, rowR_apply]
  have hZ1' : ∀ j, Z1 j = Ideal.ofBits .f32 0x00000000#32 := fun j => by rw [← hZ1, splatR_apply]
  have hZ2' : ∀ j, Z2 j = Ideal.ofBits .f32 0x00000000#32 := fun j => by rw [← hZ2, splatR_apply]
  have hZ3' : ∀ j, Z3 j = Ideal.ofBits .f32 0x3C23D70A#32 := fun j => by rw [← hZ3, splatR_apply]
  simp only [select_apply, cmpf_apply, mulf_apply, addf_apply, maximumf_apply,
    rdot1_eq, rdot2_eq, dotGeneral_plain_apply, hT1', hT2', hB1', hB2', hZ1', hZ2', hZ3']
  rfl

end FinalPoint

open FinalPoint in

theorem final_point (p : FVec Ideal S2048x96 .f32) (l1w : FVec Ideal S96x96 .f32) (l1b : FVec Ideal S96 .f32)
    (l2w : FVec Ideal S10x96 .f32) (l2b : FVec Ideal S10 .f32) (x0 : FVec Ideal S512x96 .f32) (a : Fin 512) (r : Fin 2048)
    (h0 : ∀ c : Fin 96, x0 (ix2 a c) = p (ix2 r c)) (b : Fin 10) :
    k4_pay1 (F := Ideal) x0 l1w l1b l2w l2b (ix2 a b) = Cert.Spec.head p l1w l1b l2w l2b (ix2 r b) := by
  have e : preAct x0 l1w l1b l2w l2b a b = preAct p l1w l1b l2w l2b r b := by
    unfold preAct
    simp only [h0]
  rw [k4_pay1_apply, head_apply, e]
  exact Cert.Spec.leaky_ogt_eq_oge_f32 _ _

end Cert.KernelIdeal.Hand

end
-- ==== Proof.Val.FinalVal.lean ====
import proofs.«416321_j46445776339725_1_alg».proof.Proof.KI.Final4
import proofs.«416321_j46445776339725_1_alg».proof.Proof.Val.Spec
import proofs.«416321_j46445776339725_1_alg».proof.Proof.Val.FinalPoint
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4_2 : (![0, 0] : Fin 2 → Nat) = fun _ => 0 := funext fun a => by fin_cases a <;> rfl
theorem hz4_1 : (![0] : Fin 1 → Nat) = fun _ => 0 := funext fun a => by fin_cases a <;> rfl

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

theorem iblk4_0_apply (c : Dev nD) (t : Fin cfg4.N) (a : Fin 512) (b : Fin 96) (r : Fin 2048) (hr : r.val = 512 * t.val + a.val) :
    (iblk4 V c 0 t : Vec Ideal S512x96 .f32) (ix2 a b) = (V c main_v42 : S2048x96.Idx → Elt Ideal .f32) (ix2 r b) := by
  obtain ⟨e0, e1, -⟩ := idx_facts4 t
  unfold iblk4
  rw [View.read_apply]
  show V c main_v42 _ = V c main_v42 _
  congr 1
  funext d
  apply Fin.ext
  match d with
  | ⟨0, _⟩ => show win4_0.index t (0 : Fin 2) * 512 + 1 * a.val = r.val; rw [e0, hr]; omega
  | ⟨1, _⟩ => show win4_0.index t (1 : Fin 2) * 96 + 1 * b.val = b.val; rw [e1]; omega

theorem iblk4_1_eq (c : Dev nD) (t : Fin cfg4.N) : (iblk4 V c 1 t : Vec Ideal S96x96 .f32) = (V c main_arg28 : S96x96.Idx → Elt Ideal .f32) := by
  obtain ⟨-, -, e0, e1, -⟩ := idx_facts4 t
  funext j
  unfold iblk4
  rw [View.read_apply]
  show V c main_arg28 _ = V c main_arg28 _
  congr 1
  funext d
  apply Fin.ext
  match d with
  | ⟨0, _⟩ => show win4_1.index t (0 : Fin 2) * 96 + 1 * (j 0).val = (j 0).val; rw [e0]; omega
  | ⟨1, _⟩ => show win4_1.index t (1 : Fin 2) * 96 + 1 * (j 1).val = (j 1).val; rw [e1]; omega

theorem iblk4_2_eq (c : Dev nD) (t : Fin cfg4.N) : (iblk4 V c 2 t : Vec Ideal S96 .f32) = (V c main_arg29 : S96.Idx → Elt Ideal .f32) := by
  obtain ⟨-, -, -, -, e0, -⟩ := idx_facts4 t
  funext j
  unfold iblk4
  rw [View.read_apply]
  show V c main_arg29 _ = V c main_arg29 _
  congr 1
  funext d
  apply Fin.ext
  match d with
  | ⟨0, _⟩ => show win4_2.index t (0 : Fin 1) * 96 + 1 * (j 0).val = (j 0).val; rw [e0]; omega

theorem iblk4_3_eq (c : Dev nD) (t : Fin cfg4.N) : (iblk4 V c 3 t : Vec Ideal S10x96 .f32) = (V c main_arg30 : S10x96.Idx → Elt Ideal .f32) := by
  obtain ⟨-, -, -, -, -, e0, e1, -⟩ := idx_facts4 t
  funext j
  unfold iblk4
  rw [View.read_apply]
  show V c main_arg30 _ = V c main_arg30 _
  congr 1
  funext d
  apply Fin.ext
  match d with
  | ⟨0, _⟩ => show win4_3.index t (0 : Fin 2) * 10 + 1 * (j 0).val = (j 0).val; rw [e0]; omega
  | ⟨1, _⟩ => show win4_3.index t (1 : Fin 2) * 96 + 1 * (j 1).val = (j 1).val; rw [e1]; omega

theorem iblk4_4_eq (c : Dev nD) (t : Fin cfg4.N) : (iblk4 V c 4 t : Vec Ideal S10 .f32) = (V c main_arg31 : S10.Idx → Elt Ideal .f32) := by
  obtain ⟨-, -, -, -, -, -, -, e0, -⟩ := idx_facts4 t
  funext j
  unfold iblk4
  rw [View.read_apply]
  show V c main_arg31 _ = V c main_arg31 _
  congr 1
  funext d
  apply Fin.ext
  match d with
  | ⟨0, _⟩ => show win4_4.index t (0 : Fin 1) * 10 + 1 * (j 0).val = (j 0).val; rw [e0]; omega

abbrev G4 (c : Dev nD) : S2048x10.Idx → Elt Ideal .f32 :=
  Cert.Spec.head (V c main_v42) (V c main_arg28) (V c main_arg29) (V c main_arg30) (V c main_arg31)

theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero hz4_2]
  simp only [View.ld_unit_zero (S := S512x96) hz4_2, View.ld_unit_zero (S := S96x96) hz4_2, View.ld_unit_zero (S := S96) hz4_1,
    View.ld_unit_zero (S := S10x96) hz4_2, View.ld_unit_zero (S := S10) hz4_1]
  rw [iblk4_1_eq, iblk4_2_eq, iblk4_3_eq, iblk4_4_eq]
  obtain ⟨-, -, -, -, -, -, -, -, e0, e1⟩ := idx_facts4 t
  have ht : t.val < 4 := lt_of_lt_of_eq t.isLt N_4
  funext j
  obtain ⟨a, b, rfl⟩ : ∃ (a : Fin 512) (b : Fin 10), j = ix2 a b := ⟨j 0, j 1, eq_ix2 j⟩
  show k4_pay1 (F := Ideal) (iblk4 V c 0 t) (V c main_arg28) (V c main_arg29) (V c main_arg30) (V c main_arg31) (ix2 a b)
    = G4 V c (((cfg4.win 5).blk t).view.emb (ix2 a b))
  have ha : a.val < 512 := a.isLt
  refine (final_point (V c main_v42) (V c main_arg28) (V c main_arg29) (V c main_arg30) (V c main_arg31) (iblk4 V c 0 t) a
    ⟨512 * t.val + a.val, by omega⟩ (fun c' => iblk4_0_apply V c t a c' ⟨512 * t.val + a.val, by omega⟩ rfl) b).trans ?_
  show G4 V c _ = G4 V c _
  congr 1
  funext d
  apply Fin.ext
  match d with
  | ⟨0, _⟩ => show 512 * t.val + a.val = win4_5.index t (0 : Fin 2) * 512 + 1 * a.val; rw [e0]; omega
  | ⟨1, _⟩ => show b.val = win4_5.index t (1 : Fin 2) * 10 + 1 * b.val; rw [e1]; omega

theorem mem_blk4 (t : Fin cfg4.N) (i : S2048x10.Idx) :
    i ∈ ((cfg4.win 5).blk t).view.set ↔ ∀ a : Fin 2, win4_5.index t a * S512x10.size a ≤ (i a).val ∧ (i a).val < win4_5.index t a * S512x10.size a + S512x10.size a := by
  show i ∈ ((View.whole main_v43).slice (win4_5.rect t)).set ↔ _
  rw [View.set_slice_whole, Rect.mem_set_unit]
  exact Iff.rfl

theorem cover4 (i : S2048x10.Idx) : ∃ t : Fin cfg4.N, (cfg4.win 5).flush t = true ∧ i ∈ ((cfg4.win 5).blk t).view.set := by
  have hi0 : (i 0).val < 2048 := (i 0).isLt
  have hi1 : (i 1).val < 10 := (i 1).isLt
  have hN : cfg4.N = 4 := N_4
  refine ⟨⟨(i 0).val / 512, by rw [hN]; omega⟩, flush4_5 _, ?_⟩
  rw [mem_blk4]
  obtain ⟨-, -, -, -, -, -, -, -, e0, e1⟩ := idx_facts4 ⟨(i 0).val / 512, by rw [hN]; omega⟩
  intro a
  match a with
  | ⟨0, _⟩ =>
    show win4_5.index _ (0 : Fin 2) * 512 ≤ (i 0).val ∧ (i 0).val < win4_5.index _ (0 : Fin 2) * 512 + 512
    rw [e0]; show (i 0).val / 512 * 512 ≤ (i 0).val ∧ (i 0).val < (i 0).val / 512 * 512 + 512; omega
  | ⟨1, _⟩ =>
    show win4_5.index _ (1 : Fin 2) * 10 ≤ (i 1).val ∧ (i 1).val < win4_5.index _ (1 : Fin 2) * 10 + 10
    rw [e1]; omega

theorem final4 (c : Dev nD) : (dat4 V c).arrAt 5 cfg4.N = Cert.Spec.head (V c main_v42) (V c main_arg28) (V c main_arg29) (V c main_arg30) (V c main_arg31) :=
  (dat4 V c).arrAt_eq_of_cover 5 (G4 V c) (fun t _ => flushed4_eq V c t) cover4

end Cert.KernelIdeal.Hand

end
-- ==== Proof.Val.Compose.lean ====
import proofs.«416321_j46445776339725_1_alg».proof.Proof.KI.Run
import proofs.«416321_j46445776339725_1_alg».proof.Proof.Val.HostVals
import proofs.«416321_j46445776339725_1_alg».proof.Proof.Val.SpecPool
import proofs.«416321_j46445776339725_1_alg».proof.Proof.Val.MlpVal0
import proofs.«416321_j46445776339725_1_alg».proof.Proof.Val.MlpVal1
import proofs.«416321_j46445776339725_1_alg».proof.Proof.Val.MlpVal2
import proofs.«416321_j46445776339725_1_alg».proof.Proof.Val.PoolVal
import proofs.«416321_j46445776339725_1_alg».proof.Proof.Val.FinalVal

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (ρ : Dev nD → PrngReg) (c : Dev nD)

abbrev arg (b : Ref sig .tc) : Buf (Elt Ideal) ((c : Thread nD τ).loc b) := m ((c : Thread nD τ).loc b)

def H1 : FVec Ideal S100000x32 .f32 :=
  Cert.Spec.mlp (Cert.Spec.aggr (arg m c main_arg0) (Cert.Spec.gidx (arg m c main_arg2)) (Cert.Spec.sidx (arg m c main_arg2)))
    (arg m c main_arg4) (arg m c main_arg5) (arg m c main_arg6) (arg m c main_arg7) (arg m c main_arg8) (arg m c main_arg9) (arg m c main_arg10) (arg m c main_arg11)

def H2 : FVec Ideal S100000x32 .f32 :=
  Cert.Spec.mlp (Cert.Spec.aggr (H1 m c) (Cert.Spec.gidx (arg m c main_arg2)) (Cert.Spec.sidx (arg m c main_arg2)))
    (arg m c main_arg12) (arg m c main_arg13) (arg m c main_arg14) (arg m c main_arg15) (arg m c main_arg16) (arg m c main_arg17) (arg m c main_arg18) (arg m c main_arg19)

def H3 : FVec Ideal S100000x32 .f32 :=
  Cert.Spec.mlp (Cert.Spec.aggr (H2 m c) (Cert.Spec.gidx (arg m c main_arg2)) (Cert.Spec.sidx (arg m c main_arg2)))
    (arg m c main_arg20) (arg m c main_arg21) (arg m c main_arg22) (arg m c main_arg23) (arg m c main_arg24) (arg m c main_arg25) (arg m c main_arg26) (arg m c main_arg27)

theorem V1_v14 : V1 m ρ c main_v14
    = Cert.Spec.aggr (arg m c main_arg0) (Cert.Spec.gidx (arg m c main_arg2)) (Cert.Spec.sidx (arg m c main_arg2)) := by
  have h := hostOps0_v14 (W0 m ρ c)
  rw [kgidx_eq, ksidx_eq] at h
  exact h

theorem W2_v15 : W2 m ρ c (Proc.devRef .tc main_v15) = H1 m c :=
  (W2_arr m ρ c 9).trans ((final0 (V1 m ρ) c).trans (by
    unfold H1
    rw [V1_v14 m ρ c, V1_keep m ρ c main_arg4 (by decide), V1_keep m ρ c main_arg5 (by decide), V1_keep m ρ c main_arg6 (by decide), V1_keep m ρ c main_arg7 (by decide), V1_keep m ρ c main_arg8 (by decide), V1_keep m ρ c main_arg9 (by decide), V1_keep m ρ c main_arg10 (by decide), V1_keep m ρ c main_arg11 (by decide)]))

theorem W2_v1 : W2 m ρ c (Proc.devRef .tc main_v1) = krow0 (arg m c main_arg2) :=
  (W2_of_ne m ρ c main_v1 (by decide)).trans (hostOps0_v1 (W0 m ρ c))

theorem W2_v3 : W2 m ρ c (Proc.devRef .tc main_v3) = krow1 (arg m c main_arg2) :=
  (W2_of_ne m ρ c main_v3 (by decide)).trans (hostOps0_v3 (W0 m ρ c))

theorem V3_v26 : V3 m ρ c main_v26
    = Cert.Spec.aggr (H1 m c) (Cert.Spec.gidx (arg m c main_arg2)) (Cert.Spec.sidx (arg m c main_arg2)) := by
  have h := hostOps1_v26 (W2 m ρ c)
  rw [W2_v15 m ρ c, W2_v1 m ρ c, W2_v3 m ρ c, knorm_krow0, kcol_krow1] at h
  exact h

theorem W4_v27 : W4 m ρ c (Proc.devRef .tc main_v27) = H2 m c :=
  (W4_arr m ρ c 9).trans ((final1 (V3 m ρ) c).trans (by
    unfold H2
    rw [V3_v26 m ρ c, V3_keep m ρ c main_arg12 (by decide), V3_keep m ρ c main_arg13 (by decide), V3_keep m ρ c main_arg14 (by decide), V3_keep m ρ c main_arg15 (by decide), V3_keep m ρ c main_arg16 (by decide), V3_keep m ρ c main_arg17 (by decide), V3_keep m ρ c main_arg18 (by decide), V3_keep m ρ c main_arg19 (by decide)]))

theorem W4_v15 : W4 m ρ c (Proc.devRef .tc main_v15) = H1 m c :=
  (W4_of_ne m ρ c main_v15 (by decide)).trans
    ((StableHlo.after_of_writes_sub (r := main_v15) hostOps1 _ hostOps1_writes (by decide)).trans (W2_v15 m ρ c))

theorem W4_v1 : W4 m ρ c (Proc.devRef .tc main_v1) = krow0 (arg m c main_arg2) :=
  (W4_of_ne m ρ c main_v1 (by decide)).trans
    ((StableHlo.after_of_writes_sub (r := main_v1) hostOps1 _ hostOps1_writes (by decide)).trans (W2_v1 m ρ c))

theorem W4_v3 : W4 m ρ c (Proc.devRef .tc main_v3) = krow1 (arg m c main_arg2) :=
  (W4_of_ne m ρ c main_v3 (by decide)).trans
    ((StableHlo.after_of_writes_sub (r := main_v3) hostOps1 _ hostOps1_writes (by decide)).trans (W2_v3 m ρ c))

theorem V5_v38 : V5 m ρ c main_v38
    = Cert.Spec.aggr (H2 m c) (Cert.Spec.gidx (arg m c main_arg2)) (Cert.Spec.sidx (arg m c main_arg2)) := by
  have h := hostOps2_v38 (W4 m ρ c)
  rw [W4_v27 m ρ c, W4_v1 m ρ c, W4_v3 m ρ c, knorm_krow0, kcol_krow1] at h
  exact h

theorem W6_v39 : W6 m ρ c (Proc.devRef .tc main_v39) = H3 m c :=
  (W6_arr m ρ c 9).trans ((final2 (V5 m ρ) c).trans (by
    unfold H3
    rw [V5_v38 m ρ c, V5_keep m ρ c main_arg20 (by decide), V5_keep m ρ c main_arg21 (by decide), V5_keep m ρ c main_arg22 (by decide), V5_keep m ρ c main_arg23 (by decide), V5_keep m ρ c main_arg24 (by decide), V5_keep m ρ c main_arg25 (by decide), V5_keep m ρ c main_arg26 (by decide), V5_keep m ρ c main_arg27 (by decide)]))

theorem W6_v27 : W6 m ρ c (Proc.devRef .tc main_v27) = H2 m c :=
  (W6_of_ne m ρ c main_v27 (by decide)).trans
    ((StableHlo.after_of_writes_sub (r := main_v27) hostOps2 _ hostOps2_writes (by decide)).trans (W4_v27 m ρ c))

theorem W6_v15 : W6 m ρ c (Proc.devRef .tc main_v15) = H1 m c :=
  (W6_of_ne m ρ c main_v15 (by decide)).trans
    ((StableHlo.after_of_writes_sub (r := main_v15) hostOps2 _ hostOps2_writes (by decide)).trans (W4_v15 m ρ c))

theorem W6_arg3 : W6 m ρ c (Proc.devRef .tc main_arg3) = arg m c main_arg3 :=
  (StableHlo.after_of_writes_sub (r := main_arg3) hostOps3 _ hostOps3_writes (by decide)).symm.trans (V7_keep m ρ c main_arg3 (by decide))

theorem V7_v40 : V7 m ρ c main_v40
    = concatenate S100000x96 1 [⟨S100000x32, H1 m c⟩, ⟨S100000x32, H2 m c⟩, ⟨S100000x32, H3 m c⟩]
        concatenates_S100000x32_S100000x32_S100000x32_S100000x96_d1 := by
  have h := hostOps3_v40 (W6 m ρ c)
  rw [W6_v15 m ρ c, W6_v27 m ρ c, W6_v39 m ρ c] at h
  exact h

theorem V7_v41 : V7 m ρ c main_v41 = Cert.Spec.bidx (arg m c main_arg3) := by
  have h := hostOps3_v41 (W6 m ρ c)
  rw [W6_arg3 m ρ c, kbidx_eq] at h
  exact h

theorem V8_v42 : V8 m ρ c main_v42 = Cert.Spec.pool (H1 m c) (H2 m c) (H3 m c) (Cert.Spec.bidx (arg m c main_arg3)) :=
  (W8_arr m ρ c 2).trans ((final3 (V7 m ρ) c).trans (by
    rw [V7_v40 m ρ c, V7_v41 m ρ c, Cert.Spec.onehotSum_concat]))

theorem out_eq : W9 m ρ c (Proc.devRef .tc main_v43)
    = Cert.Spec.result (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) :=
  (W9_out m ρ c).trans ((final4 (V8 m ρ) c).trans (by
    rw [V8_v42 m ρ c, V8_keep m ρ c main_arg28 (by decide), V8_keep m ρ c main_arg29 (by decide), V8_keep m ρ c main_arg30 (by decide), V8_keep m ρ c main_arg31 (by decide)]
    rfl))

end Cert.KernelIdeal.Hand

end
-- ==== Proof.lean ====
/- The five claims assembled. Each kernel program's run ends with every argument array as launched and the result at the value
   composed region by region; the plain program's run is read back operation by operation; both exact programs end at one
   function of the argument arrays, so their results agree wherever their arguments do. -/
import proofs.«416321_j46445776339725_1_alg».proof.Defs
import proofs.«416321_j46445776339725_1_alg».proof.Proof.Gen.Kernel
import proofs.«416321_j46445776339725_1_alg».proof.Proof.Gen.KernelIdeal
import proofs.«416321_j46445776339725_1_alg».proof.Proof.Gen.ReferenceIdeal
import proofs.«416321_j46445776339725_1_alg».proof.Proof.Gen.Pre_finite_inputs
import proofs.«416321_j46445776339725_1_alg».proof.Proof.K.Run
import proofs.«416321_j46445776339725_1_alg».proof.Proof.KI.Run
import proofs.«416321_j46445776339725_1_alg».proof.Proof.Ref.Run
import proofs.«416321_j46445776339725_1_alg».proof.Proof.Val.Compose
import Idealize.ShloMosaic.Adequacy
import Idealize.ShloMosaic.Init

noncomputable section

namespace Cert.Proof

open Idealize.ShloMosaic Idealize.SL.Sem

theorem frame_k : Cert.frame_Kernel := fun m ρ _ =>
  (θ_run _ _ _).mono (fun r h c => by and_intros <;> exact (h c).2 _ (by decide)) (Cert.Kernel.Hand.run_args m ρ)
theorem frame_ki : Cert.frame_KernelIdeal := fun m ρ _ =>
  (θ_run _ _ _).mono (fun r h c => by and_intros <;> exact (h c).2 _ (by decide)) (Cert.KernelIdeal.Hand.run_args m ρ)
theorem frame_r : Cert.frame_ReferenceIdeal := fun m ρ _ =>
  (θ_run Cert.ReferenceIdeal.defs _ _).mono (fun _ h c => (h c).2) (Cert.ReferenceIdeal.Hand.run m ρ)

open Cert.KernelIdeal Cert.KernelIdeal.Hand in
theorem algebraic : Cert.algebraic_KernelIdeal_ReferenceIdeal := by
  intro m ρ m' ρ' _ hagree
  refine ⟨fun c => Cert.Spec.result (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)), ?_, ?_⟩
  · refine (θ_run Cert.KernelIdeal.defs _ _).mono (fun r h c => ⟨(h c).1.trans (out_eq m ρ c), ?_⟩) (run_args (F := Ideal) m ρ)
    and_intros <;> exact (h c).2 _ (by decide)
  · refine (θ_run Cert.ReferenceIdeal.defs _ _).mono (fun r h c => ⟨(h c).1.trans ?_, (h c).2⟩) (Cert.ReferenceIdeal.Hand.run m' ρ')
    obtain ⟨e0, e1, e2, e3, e4, e5, e6, e7, e8, e9, e10, e11, e12, e13, e14, e15, e16, e17, e18, e19, e20, e21, e22, e23, e24, e25, e26, e27, e28, e29, e30, e31⟩ := hagree c
    congr 1

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
